-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v180)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v180) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x3 : Shape := ⟨2, ![2097152, 3]⟩
abbrev S2097152x1 : Shape := ⟨2, ![2097152, 1]⟩
abbrev S2048383x3 : Shape := ⟨2, ![2048383, 3]⟩
abbrev S2097152 : Shape := ⟨1, ![2097152]⟩
abbrev S3x128 : Shape := ⟨2, ![3, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S32768 : Shape := ⟨1, ![32768]⟩
abbrev S_ : Shape := ⟨0, ![]⟩

class Facts : Prop where
  bcast_S_S2097152x3 : S_.BroadcastsInDim S2097152x3 (![] : Fin 0 → Fin S2097152x3.rank)
  reducesTo_S2097152x3_S_d0_1 : S2097152x3.ReducesTo [0, 1] S_
  h_S_ : 0 < S_.numel
  bcast_S_S2097152x1 : S_.BroadcastsInDim S2097152x1 (![] : Fin 0 → Fin S2097152x1.rank)
  reducesTo_S2097152x1_S_d0_1 : S2097152x1.ReducesTo [0, 1] S_
  bcast_S_S2048383x3 : S_.BroadcastsInDim S2048383x3 (![] : Fin 0 → Fin S2048383x3.rank)
  reducesTo_S2048383x3_S_d0_1 : S2048383x3.ReducesTo [0, 1] S_
  bcast_S_S2097152 : S_.BroadcastsInDim S2097152 (![] : Fin 0 → Fin S2097152.rank)
  reducesTo_S2097152_S_d0 : S2097152.ReducesTo [0] S_
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S128 .f32) (main_arg8 : FVec F S128x128 .f32) (main_arg9 : FVec F S128 .f32) (main_arg10 : FVec F S128x1 .f32) (main_arg11 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg10
  let main_cst_18 : FVec F S_ .f32 := constant S_ .f32 0x7F800000#32
  let main_v50 : FVec F S128x1 .f32 := broadcastInDim S128x1 ![] bcast_S_S128x1 main_cst_18
  fn_part3 (F := F) main_arg11 main_v48 main_v49 main_v50

def fn_part1 {F : FTy → Type} [FloatOps F] (main_arg4 : FVec F S3x128 .f32) (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) (main_v13 : IVec S_ 1) (main_v16 : IVec S2097152 1) : IVec S_ 1 :=
  let main_c_5 : IVec S_ 1 := constantI S_ 1 1#1
  let main_v17 : IVec S_ 1 := (fun x v => Host.reduce IntOp.andi x v reducesTo_S2097152_S_d0 h_S_) main_v16 main_c_5
  let main_v18 : IVec S_ 1 := andi main_v13 main_v17
  let main_v19 : FVec F S3x128 .f32 := Host.absf main_arg4
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S2097152x3 .f32) (main_arg1 : FVec F S2097152x1 .f32) (main_arg2 : FVec F S2048383x3 .f32) (main_arg3 : FVec F S2097152 .f32) (main_arg4 : FVec F S3x128 .f32) (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) (main_arg12 : IVec S32768 32) : IVec S_ 1 :=
  let main_v0 : FVec F S2097152x3 .f32 := Host.absf main_arg0
  let main_cst : FVec F S_ .f32 := constant S_ .f32 0x7F800000#32
  let main_v1 : FVec F S2097152x3 .f32 := broadcastInDim S2097152x3 ![] bcast_S_S2097152x3 main_cst
  let main_v2 : IVec S2097152x3 1 := cmpf .olt main_v0 main_v1
  let main_c : IVec S_ 1 := constantI S_ 1 1#1
  let main_v3 : IVec S_ 1 := (fun x v => Host.reduce IntOp.andi x v reducesTo_S2097152x3_S_d0_1 h_S_) main_v2 main_c
  let main_v4 : FVec F S2097152x1 .f32 := Host.absf main_arg1
  let main_cst_0 : FVec F S_ .f32 := constant S_ .f32 0x7F800000#32
  let main_v5 : FVec F S2097152x1 .f32 := broadcastInDim S2097152x1 ![] bcast_S_S2097152x1 main_cst_0
  let main_v6 : IVec S2097152x1 1 := cmpf .olt main_v4 main_v5
  let main_c_1 : IVec S_ 1 := constantI S_ 1 1#1
  let main_v7 : IVec S_ 1 := (fun x v => Host.reduce IntOp.andi x v reducesTo_S2097152x1_S_d0_1 h_S_) main_v6 main_c_1
  let main_v8 : IVec S_ 1 := andi main_v3 main_v7
  let main_v9 : FVec F S2048383x3 .f32 := Host.absf main_arg2
  let main_cst_2 : FVec F S_ .f32 := constant S_ .f32 0x7F800000#32
  let main_v10 : FVec F S2048383x3 .f32 := broadcastInDim S2048383x3 ![] bcast_S_S2048383x3 main_cst_2
  let main_v11 : IVec S2048383x3 1 := cmpf .olt main_v9 main_v10
  let main_c_3 : IVec S_ 1 := constantI S_ 1 1#1
  let main_v12 : IVec S_ 1 := (fun x v => Host.reduce IntOp.andi x v reducesTo_S2048383x3_S_d0_1 h_S_) main_v11 main_c_3
  let main_v13 : IVec S_ 1 := andi main_v8 main_v12
  let main_v14 : FVec F S2097152 .f32 := Host.absf main_arg3
  let main_cst_4 : FVec F S_ .f32 := constant S_ .f32 0x7F800000#32
  let main_v15 : FVec F S2097152 .f32 := broadcastInDim S2097152 ![] bcast_S_S2097152 main_cst_4
  let main_v16 : IVec S2097152 1 := cmpf .olt main_v14 main_v15
  fn_part1 (F := F) main_arg4 main_arg5 main_arg6 main_arg7 main_arg8 main_arg9 main_arg10 main_arg11 main_v13 main_v16
-- ==== Kernel.lean ====
abbrev S2097152x3 : Shape := ⟨2, ![2097152, 3]⟩
abbrev S2097152x1 : Shape := ⟨2, ![2097152, 1]⟩
abbrev S2048383x3 : Shape := ⟨2, ![2048383, 3]⟩
abbrev S2097152 : Shape := ⟨1, ![2097152]⟩
abbrev S3x128 : Shape := ⟨2, ![3, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S32768 : Shape := ⟨1, ![32768]⟩
abbrev S8x3 : Shape := ⟨2, ![8, 3]⟩
abbrev S_ : Shape := ⟨0, ![]⟩
abbrev S32768x1 : Shape := ⟨2, ![32768, 1]⟩
abbrev S32768x3 : Shape := ⟨2, ![32768, 3]⟩
abbrev S32768x1x3 : Shape := ⟨3, ![32768, 1, 3]⟩
abbrev S1x8x3 : Shape := ⟨3, ![1, 8, 3]⟩
abbrev S32768x8x3 : Shape := ⟨3, ![32768, 8, 3]⟩
abbrev S32768x8x1 : Shape := ⟨3, ![32768, 8, 1]⟩
abbrev S32768x8 : Shape := ⟨2, ![32768, 8]⟩
abbrev S262144 : Shape := ⟨1, ![262144]⟩
abbrev S294912 : Shape := ⟨1, ![294912]⟩
abbrev S294912x1 : Shape := ⟨2, ![294912, 1]⟩
abbrev S294912x3 : Shape := ⟨2, ![294912, 3]⟩
abbrev S262144x1 : Shape := ⟨2, ![262144, 1]⟩
abbrev S262144x3 : Shape := ⟨2, ![262144, 3]⟩
abbrev S557056x3 : Shape := ⟨2, ![557056, 3]⟩
abbrev S3x557056 : Shape := ⟨2, ![3, 557056]⟩
abbrev S128x3 : Shape := ⟨2, ![128, 3]⟩
abbrev S1x128 : Shape := ⟨2, ![1, 128]⟩
abbrev S1x1 : Shape := ⟨2, ![1, 1]⟩
abbrev S1x557056 : Shape := ⟨2, ![1, 557056]⟩
abbrev S3x8704 : Shape := ⟨2, ![3, 8704]⟩
abbrev S1x8704 : Shape := ⟨2, ![1, 8704]⟩
abbrev S128x8704 : Shape := ⟨2, ![128, 8704]⟩
abbrev S557056 : Shape := ⟨1, ![557056]⟩

abbrev nBuf : Space → Nat
  | .hbm => 312
  | .vmem => 12
  | .smem => 0
  | _ => 0

abbrev hbmTy0_0 (i : Nat) : BufTy := match i % 128 with
  | 0 => ⟨S2097152x3, .f32⟩
  | 1 => ⟨S2097152x1, .f32⟩
  | 2 => ⟨S2048383x3, .f32⟩
  | 3 => ⟨S2097152, .f32⟩
  | 4 => ⟨S3x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x1, .f32⟩
  | 11 => ⟨S1, .f32⟩
  | 12 => ⟨S32768, .i32⟩
  | 13 => ⟨S8x3, .i32⟩
  | 14 => ⟨S8x3, .i32⟩
  | 15 => ⟨S_, .i32⟩
  | 16 => ⟨S_, .i32⟩
  | 17 => ⟨S32768, .i32⟩
  | 18 => ⟨S32768, .i32⟩
  | 19 => ⟨S32768, .i32⟩
  | 20 => ⟨S_, .i32⟩
  | 21 => ⟨S32768, .i32⟩
  | 22 => ⟨S32768, .i1⟩
  | 23 => ⟨S32768, .i32⟩
  | 24 => ⟨S32768, .i32⟩
  | 25 => ⟨S_, .i32⟩
  | 26 => ⟨S32768, .i32⟩
  | 27 => ⟨S32768, .i1⟩
  | 28 => ⟨S32768, .i1⟩
  | 29 => ⟨S_, .i32⟩
  | 30 => ⟨S32768, .i32⟩
  | 31 => ⟨S32768, .i32⟩
  | 32 => ⟨S32768, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S32768, .i32⟩
  | 40 => ⟨S32768, .i32⟩
  | 41 => ⟨S_, .i32⟩
  | 42 => ⟨S32768, .i32⟩
  | 43 => ⟨S32768, .i1⟩
  | 44 => ⟨S_, .i32⟩
  | 45 => ⟨S32768, .i32⟩
  | 46 => ⟨S32768, .i1⟩
  | 47 => ⟨S_, .i32⟩
  | 48 => ⟨S_, .i1⟩
  | 49 => ⟨S32768, .i1⟩
  | 50 => ⟨S32768, .i1⟩
  | 51 => ⟨S32768, .i1⟩
  | 52 => ⟨S32768, .i32⟩
  | 53 => ⟨S32768, .i32⟩
  | 54 => ⟨S32768, .i32⟩
  | 55 => ⟨S_, .i32⟩
  | 56 => ⟨S_, .i32⟩
  | 57 => ⟨S32768, .i32⟩
  | 58 => ⟨S32768, .i32⟩
  | 59 => ⟨S32768, .i32⟩
  | 60 => ⟨S_, .i32⟩
  | 61 => ⟨S32768, .i32⟩
  | 62 => ⟨S32768, .i1⟩
  | 63 => ⟨S32768, .i32⟩
  | 64 => ⟨S32768, .i32⟩
  | 65 => ⟨S_, .i32⟩
  | 66 => ⟨S32768, .i32⟩
  | 67 => ⟨S32768, .i1⟩
  | 68 => ⟨S32768, .i1⟩
  | 69 => ⟨S_, .i32⟩
  | 70 => ⟨S32768, .i32⟩
  | 71 => ⟨S32768, .i32⟩
  | 72 => ⟨S32768, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S32768, .i32⟩
  | 80 => ⟨S32768, .i32⟩
  | 81 => ⟨S_, .i32⟩
  | 82 => ⟨S32768, .i32⟩
  | 83 => ⟨S32768, .i1⟩
  | 84 => ⟨S_, .i32⟩
  | 85 => ⟨S32768, .i32⟩
  | 86 => ⟨S32768, .i1⟩
  | 87 => ⟨S_, .i32⟩
  | 88 => ⟨S_, .i1⟩
  | 89 => ⟨S32768, .i1⟩
  | 90 => ⟨S32768, .i1⟩
  | 91 => ⟨S32768, .i1⟩
  | 92 => ⟨S32768, .i32⟩
  | 93 => ⟨S32768, .i32⟩
  | 94 => ⟨S32768, .i32⟩
  | 95 => ⟨S_, .i32⟩
  | 96 => ⟨S32768, .i32⟩
  | 97 => ⟨S32768, .i1⟩
  | 98 => ⟨S_, .i32⟩
  | 99 => ⟨S32768, .i32⟩
  | 100 => ⟨S32768, .i1⟩
  | 101 => ⟨S32768, .i1⟩
  | 102 => ⟨S_, .i32⟩
  | 103 => ⟨S32768, .i32⟩
  | 104 => ⟨S32768, .i1⟩
  | 105 => ⟨S32768, .i1⟩
  | 106 => ⟨S_, .i32⟩
  | 107 => ⟨S32768, .i32⟩
  | 108 => ⟨S32768, .i1⟩
  | 109 => ⟨S32768, .i1⟩
  | 110 => ⟨S_, .i32⟩
  | 111 => ⟨S32768, .i32⟩
  | 112 => ⟨S32768, .i1⟩
  | 113 => ⟨S32768, .i1⟩
  | 114 => ⟨S_, .i32⟩
  | 115 => ⟨S32768, .i32⟩
  | 116 => ⟨S32768, .i1⟩
  | 117 => ⟨S32768, .i1⟩
  | 118 => ⟨S32768, .f32⟩
  | 119 => ⟨S32768x1, .i32⟩
  | 120 => ⟨S32768x1, .i32⟩
  | 121 => ⟨S32768x1, .i32⟩
  | 122 => ⟨S32768x3, .i32⟩
  | 123 => ⟨S32768x1x3, .i32⟩
  | 124 => ⟨S1x8x3, .i32⟩
  | 125 => ⟨S32768x8x3, .i32⟩
  | 126 => ⟨S32768x8x3, .i32⟩
  | 127 => ⟨S32768x8x3, .i32⟩
  | _ => ⟨S2097152x3, .f32⟩

abbrev hbmTy0_1 (i : Nat) : BufTy := match i % 128 with
  | 0 => ⟨S32768x1x3, .i32⟩
  | 1 => ⟨S1x8x3, .i32⟩
  | 2 => ⟨S32768x8x3, .i32⟩
  | 3 => ⟨S32768x8x3, .i32⟩
  | 4 => ⟨S32768x8x3, .i32⟩
  | 5 => ⟨S32768x8x1, .i32⟩
  | 6 => ⟨S32768x8, .i32⟩
  | 7 => ⟨S_, .i32⟩
  | 8 => ⟨S32768x8, .i32⟩
  | 9 => ⟨S32768x8, .i32⟩
  | 10 => ⟨S32768x8x1, .i32⟩
  | 11 => ⟨S32768x8, .i32⟩
  | 12 => ⟨S_, .i32⟩
  | 13 => ⟨S32768x8, .i32⟩
  | 14 => ⟨S32768x8, .i32⟩
  | 15 => ⟨S32768x8, .i32⟩
  | 16 => ⟨S32768x8x1, .i32⟩
  | 17 => ⟨S32768x8, .i32⟩
  | 18 => ⟨S32768x8, .i32⟩
  | 19 => ⟨S_, .i32⟩
  | 20 => ⟨S_, .i32⟩
  | 21 => ⟨S_, .i32⟩
  | 22 => ⟨S32768x8, .i32⟩
  | 23 => ⟨S32768x8, .i32⟩
  | 24 => ⟨S_, .i32⟩
  | 25 => ⟨S32768x8, .i32⟩
  | 26 => ⟨S32768x8, .i32⟩
  | 27 => ⟨S32768x8x1, .i32⟩
  | 28 => ⟨S32768x8, .i32⟩
  | 29 => ⟨S_, .i32⟩
  | 30 => ⟨S32768x8, .i32⟩
  | 31 => ⟨S32768x8, .i32⟩
  | 32 => ⟨S32768x8x1, .i32⟩
  | 33 => ⟨S32768x8, .i32⟩
  | 34 => ⟨S_, .i32⟩
  | 35 => ⟨S32768x8, .i32⟩
  | 36 => ⟨S32768x8, .i32⟩
  | 37 => ⟨S32768x8, .i32⟩
  | 38 => ⟨S32768x8x1, .i32⟩
  | 39 => ⟨S32768x8, .i32⟩
  | 40 => ⟨S32768x8, .i32⟩
  | 41 => ⟨S_, .i32⟩
  | 42 => ⟨S_, .i32⟩
  | 43 => ⟨S_, .i32⟩
  | 44 => ⟨S32768x8, .i32⟩
  | 45 => ⟨S32768x8, .i32⟩
  | 46 => ⟨S_, .i32⟩
  | 47 => ⟨S32768x8, .i32⟩
  | 48 => ⟨S32768x8, .i32⟩
  | 49 => ⟨S262144, .i32⟩
  | 50 => ⟨S294912, .i32⟩
  | 51 => ⟨S_, .i32⟩
  | 52 => ⟨S294912, .i32⟩
  | 53 => ⟨S294912, .i1⟩
  | 54 => ⟨S_, .i32⟩
  | 55 => ⟨S294912, .i32⟩
  | 56 => ⟨S294912, .i32⟩
  | 57 => ⟨S294912, .i32⟩
  | 58 => ⟨S294912x1, .i32⟩
  | 59 => ⟨S294912x3, .f32⟩
  | 60 => ⟨S262144, .i32⟩
  | 61 => ⟨S_, .i32⟩
  | 62 => ⟨S262144, .i32⟩
  | 63 => ⟨S262144, .i1⟩
  | 64 => ⟨S_, .i32⟩
  | 65 => ⟨S262144, .i32⟩
  | 66 => ⟨S262144, .i32⟩
  | 67 => ⟨S262144, .i32⟩
  | 68 => ⟨S262144x1, .i32⟩
  | 69 => ⟨S262144x3, .f32⟩
  | 70 => ⟨S32768x3, .f32⟩
  | 71 => ⟨S262144x3, .f32⟩
  | 72 => ⟨S557056x3, .f32⟩
  | 73 => ⟨S3x557056, .f32⟩
  | 74 => ⟨S128x3, .f32⟩
  | 75 => ⟨S128x128, .f32⟩
  | 76 => ⟨S128x128, .f32⟩
  | 77 => ⟨S1x128, .f32⟩
  | 78 => ⟨S128x1, .f32⟩
  | 79 => ⟨S128x1, .f32⟩
  | 80 => ⟨S128x1, .f32⟩
  | 81 => ⟨S1x1, .f32⟩
  | 82 => ⟨S1x557056, .f32⟩
  | 83 => ⟨S557056, .f32⟩
  | 84 => ⟨S32768, .f32⟩
  | 85 => ⟨S262144, .f32⟩
  | 86 => ⟨S32768x8, .f32⟩
  | 87 => ⟨S262144, .f32⟩
  | 88 => ⟨S32768x8, .f32⟩
  | 89 => ⟨S_, .i32⟩
  | 90 => ⟨S32768, .i32⟩
  | 91 => ⟨S32768, .i1⟩
  | 92 => ⟨S_, .i32⟩
  | 93 => ⟨S32768, .i32⟩
  | 94 => ⟨S32768, .i32⟩
  | 95 => ⟨S32768, .i32⟩
  | 96 => ⟨S32768x1, .i32⟩
  | 97 => ⟨S32768x1, .f32⟩
  | 98 => ⟨S32768, .f32⟩
  | 99 => ⟨S32768, .f32⟩
  | 100 => ⟨S32768, .f32⟩
  | 101 => ⟨S_, .f32⟩
  | 102 => ⟨S_, .f32⟩
  | 103 => ⟨S_, .f32⟩
  | 104 => ⟨S_, .f32⟩
  | 105 => ⟨S32768x1, .f32⟩
  | 106 => ⟨S32768, .f32⟩
  | 107 => ⟨S32768x1, .f32⟩
  | 108 => ⟨S32768, .f32⟩
  | 109 => ⟨S32768x1, .f32⟩
  | 110 => ⟨S32768, .f32⟩
  | 111 => ⟨S32768x1, .f32⟩
  | 112 => ⟨S32768, .f32⟩
  | 113 => ⟨S32768, .f32⟩
  | 114 => ⟨S32768, .f32⟩
  | 115 => ⟨S32768, .f32⟩
  | 116 => ⟨S32768, .f32⟩
  | 117 => ⟨S32768, .f32⟩
  | 118 => ⟨S32768, .f32⟩
  | 119 => ⟨S32768, .f32⟩
  | 120 => ⟨S_, .f32⟩
  | 121 => ⟨S32768, .f32⟩
  | 122 => ⟨S32768, .f32⟩
  | 123 => ⟨S32768, .f32⟩
  | 124 => ⟨S32768x1, .f32⟩
  | 125 => ⟨S32768, .f32⟩
  | 126 => ⟨S32768x1, .f32⟩
  | 127 => ⟨S32768, .f32⟩
  | _ => ⟨S2097152x3, .f32⟩

abbrev hbmTy0_2 (i : Nat) : BufTy := match i % 128 with
  | 0 => ⟨S32768x1, .f32⟩
  | 1 => ⟨S32768, .f32⟩
  | 2 => ⟨S32768x1, .f32⟩
  | 3 => ⟨S32768, .f32⟩
  | 4 => ⟨S32768, .f32⟩
  | 5 => ⟨S32768, .f32⟩
  | 6 => ⟨S32768, .f32⟩
  | 7 => ⟨S32768, .f32⟩
  | 8 => ⟨S32768, .f32⟩
  | 9 => ⟨S32768, .f32⟩
  | 10 => ⟨S32768, .f32⟩
  | 11 => ⟨S_, .f32⟩
  | 12 => ⟨S32768, .f32⟩
  | 13 => ⟨S32768, .f32⟩
  | 14 => ⟨S32768, .f32⟩
  | 15 => ⟨S32768, .f32⟩
  | 16 => ⟨S32768x1, .f32⟩
  | 17 => ⟨S32768, .f32⟩
  | 18 => ⟨S32768x1, .f32⟩
  | 19 => ⟨S32768, .f32⟩
  | 20 => ⟨S32768x1, .f32⟩
  | 21 => ⟨S32768, .f32⟩
  | 22 => ⟨S32768x1, .f32⟩
  | 23 => ⟨S32768, .f32⟩
  | 24 => ⟨S32768, .f32⟩
  | 25 => ⟨S32768, .f32⟩
  | 26 => ⟨S32768, .f32⟩
  | 27 => ⟨S32768, .f32⟩
  | 28 => ⟨S32768, .f32⟩
  | 29 => ⟨S32768, .f32⟩
  | 30 => ⟨S32768, .f32⟩
  | 31 => ⟨S_, .f32⟩
  | 32 => ⟨S32768, .f32⟩
  | 33 => ⟨S32768, .f32⟩
  | 34 => ⟨S32768, .f32⟩
  | 35 => ⟨S32768, .f32⟩
  | 36 => ⟨S_, .i32⟩
  | 37 => ⟨S32768, .i32⟩
  | 38 => ⟨S32768, .i1⟩
  | 39 => ⟨S_, .i32⟩
  | 40 => ⟨S32768, .i32⟩
  | 41 => ⟨S32768, .i32⟩
  | 42 => ⟨S32768, .i32⟩
  | 43 => ⟨S32768x1, .i32⟩
  | 44 => ⟨S32768, .f32⟩
  | 45 => ⟨S32768, .f32⟩
  | 46 => ⟨S32768, .f32⟩
  | 47 => ⟨S32768, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | _ => ⟨S2097152x3, .f32⟩

abbrev hbmTy (i : Nat) : BufTy := match i / 128 with
  | 0 => hbmTy0_0 i
  | 1 => hbmTy0_1 i
  | 2 => hbmTy0_2 i
  | _ => ⟨S2097152x3, .f32⟩

abbrev bufTy : (tb : Table) → Fin (tcTables nBuf tb) → BufTy
  | .hbm, ⟨i, _⟩ => hbmTy i
  | .local _ .vmem, ⟨0, _⟩ => ⟨S3x8704, .f32⟩
  | .local _ .vmem, ⟨1, _⟩ => ⟨S3x8704, .f32⟩
  | .local _ .vmem, ⟨2, _⟩ => ⟨S128x3, .f32⟩
  | .local _ .vmem, ⟨3, _⟩ => ⟨S128x1, .f32⟩
  | .local _ .vmem, ⟨4, _⟩ => ⟨S128x128, .f32⟩
  | .local _ .vmem, ⟨5, _⟩ => ⟨S128x1, .f32⟩
  | .local _ .vmem, ⟨6, _⟩ => ⟨S128x128, .f32⟩
  | .local _ .vmem, ⟨7, _⟩ => ⟨S128x1, .f32⟩
  | .local _ .vmem, ⟨8, _⟩ => ⟨S1x128, .f32⟩
  | .local _ .vmem, ⟨9, _⟩ => ⟨S1x1, .f32⟩
  | .local _ .vmem, ⟨10, _⟩ => ⟨S1x8704, .f32⟩
  | .local _ .vmem, ⟨11, _⟩ => ⟨S1x8704, .f32⟩
  | _, _ => ⟨S2097152x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v0 : Ref sig .tc := ⟨.hbm, 32, rfl⟩
abbrev main_c_2 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_v5 : Ref sig .tc := ⟨.hbm, 42, rfl⟩
abbrev main_call1_v6 : Ref sig .tc := ⟨.hbm, 43, rfl⟩
abbrev main_call1_c_2 : Ref sig .tc := ⟨.hbm, 44, rfl⟩
abbrev main_call1_v7 : Ref sig .tc := ⟨.hbm, 45, rfl⟩
abbrev main_call1_v8 : Ref sig .tc := ⟨.hbm, 46, rfl⟩
abbrev main_call1_c_3 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_v1 : Ref sig .tc := ⟨.hbm, 54, rfl⟩
abbrev main_c_3 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_c : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_0 : Ref sig .tc := ⟨.hbm, 69, rfl⟩
abbrev main_call2_v12 : Ref sig .tc := ⟨.hbm, 70, rfl⟩
abbrev main_call2_v13 : Ref sig .tc := ⟨.hbm, 71, rfl⟩
abbrev main_v2 : Ref sig .tc := ⟨.hbm, 72, rfl⟩
abbrev main_c_4 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v3 : Ref sig .tc := ⟨.hbm, 94, rfl⟩
abbrev main_c_5 : Ref sig .tc := ⟨.hbm, 95, rfl⟩
abbrev main_v4 : Ref sig .tc := ⟨.hbm, 96, rfl⟩
abbrev main_v5 : Ref sig .tc := ⟨.hbm, 97, rfl⟩
abbrev main_c_6 : Ref sig .tc := ⟨.hbm, 98, rfl⟩
abbrev main_v6 : Ref sig .tc := ⟨.hbm, 99, rfl⟩
abbrev main_v7 : Ref sig .tc := ⟨.hbm, 100, rfl⟩
abbrev main_v8 : Ref sig .tc := ⟨.hbm, 101, rfl⟩
abbrev main_c_7 : Ref sig .tc := ⟨.hbm, 102, rfl⟩
abbrev main_v9 : Ref sig .tc := ⟨.hbm, 103, rfl⟩
abbrev main_v10 : Ref sig .tc := ⟨.hbm, 104, rfl⟩
abbrev main_v11 : Ref sig .tc := ⟨.hbm, 105, rfl⟩
abbrev main_c_8 : Ref sig .tc := ⟨.hbm, 106, rfl⟩
abbrev main_v12 : Ref sig .tc := ⟨.hbm, 107, rfl⟩
abbrev main_v13 : Ref sig .tc := ⟨.hbm, 108, rfl⟩
abbrev main_v14 : Ref sig .tc := ⟨.hbm, 109, rfl⟩
abbrev main_c_9 : Ref sig .tc := ⟨.hbm, 110, rfl⟩
abbrev main_v15 : Ref sig .tc := ⟨.hbm, 111, rfl⟩
abbrev main_v16 : Ref sig .tc := ⟨.hbm, 112, rfl⟩
abbrev main_v17 : Ref sig .tc := ⟨.hbm, 113, rfl⟩
abbrev main_c_10 : Ref sig .tc := ⟨.hbm, 114, rfl⟩
abbrev main_v18 : Ref sig .tc := ⟨.hbm, 115, rfl⟩
abbrev main_v19 : Ref sig .tc := ⟨.hbm, 116, rfl⟩
abbrev main_v20 : Ref sig .tc := ⟨.hbm, 117, rfl⟩
abbrev main_v21 : Ref sig .tc := ⟨.hbm, 118, rfl⟩
abbrev main_v22 : Ref sig .tc := ⟨.hbm, 119, rfl⟩
abbrev main_v23 : Ref sig .tc := ⟨.hbm, 120, rfl⟩
abbrev main_v24 : Ref sig .tc := ⟨.hbm, 121, rfl⟩
abbrev main_v25 : Ref sig .tc := ⟨.hbm, 122, rfl⟩
abbrev main_v26 : Ref sig .tc := ⟨.hbm, 123, rfl⟩
abbrev main_v27 : Ref sig .tc := ⟨.hbm, 124, rfl⟩
abbrev main_v28 : Ref sig .tc := ⟨.hbm, 125, rfl⟩
abbrev main_v29 : Ref sig .tc := ⟨.hbm, 126, rfl⟩
abbrev main_v30 : Ref sig .tc := ⟨.hbm, 127, rfl⟩
abbrev main_v31 : Ref sig .tc := ⟨.hbm, 128, rfl⟩
abbrev main_v32 : Ref sig .tc := ⟨.hbm, 129, rfl⟩
abbrev main_v33 : Ref sig .tc := ⟨.hbm, 130, rfl⟩
abbrev main_v34 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_c_11 : Ref sig .tc := ⟨.hbm, 135, rfl⟩
abbrev main_v38 : Ref sig .tc := ⟨.hbm, 136, rfl⟩
abbrev main_v39 : Ref sig .tc := ⟨.hbm, 137, rfl⟩
abbrev main_v40 : Ref sig .tc := ⟨.hbm, 138, rfl⟩
abbrev main_v41 : Ref sig .tc := ⟨.hbm, 139, rfl⟩
abbrev main_c_12 : Ref sig .tc := ⟨.hbm, 140, rfl⟩
abbrev main_v42 : Ref sig .tc := ⟨.hbm, 141, rfl⟩
abbrev main_v43 : Ref sig .tc := ⟨.hbm, 142, rfl⟩
abbrev main_v44 : Ref sig .tc := ⟨.hbm, 143, rfl⟩
abbrev main_v45 : Ref sig .tc := ⟨.hbm, 144, rfl⟩
abbrev main_v46 : Ref sig .tc := ⟨.hbm, 145, rfl⟩
abbrev main_v47 : Ref sig .tc := ⟨.hbm, 146, rfl⟩
abbrev main_c_13 : Ref sig .tc := ⟨.hbm, 147, rfl⟩
abbrev main_c_14 : Ref sig .tc := ⟨.hbm, 148, rfl⟩
abbrev main_call4_v0 : Ref sig .tc := ⟨.hbm, 149, rfl⟩
abbrev main_call4_v1 : Ref sig .tc := ⟨.hbm, 150, rfl⟩
abbrev main_call4_v2 : Ref sig .tc := ⟨.hbm, 151, rfl⟩
abbrev main_call4_v3 : Ref sig .tc := ⟨.hbm, 152, rfl⟩
abbrev main_call4_v4 : Ref sig .tc := ⟨.hbm, 153, rfl⟩
abbrev main_v48 : Ref sig .tc := ⟨.hbm, 154, rfl⟩
abbrev main_v49 : Ref sig .tc := ⟨.hbm, 155, rfl⟩
abbrev main_v50 : Ref sig .tc := ⟨.hbm, 156, rfl⟩
abbrev main_c_15 : Ref sig .tc := ⟨.hbm, 157, rfl⟩
abbrev main_v51 : Ref sig .tc := ⟨.hbm, 158, rfl⟩
abbrev main_v52 : Ref sig .tc := ⟨.hbm, 159, rfl⟩
abbrev main_v53 : Ref sig .tc := ⟨.hbm, 160, rfl⟩
abbrev main_v54 : Ref sig .tc := ⟨.hbm, 161, rfl⟩
abbrev main_c_16 : Ref sig .tc := ⟨.hbm, 162, rfl⟩
abbrev main_v55 : Ref sig .tc := ⟨.hbm, 163, rfl⟩
abbrev main_v56 : Ref sig .tc := ⟨.hbm, 164, rfl⟩
abbrev main_v57 : Ref sig .tc := ⟨.hbm, 165, rfl⟩
abbrev main_v58 : Ref sig .tc := ⟨.hbm, 166, rfl⟩
abbrev main_v59 : Ref sig .tc := ⟨.hbm, 167, rfl⟩
abbrev main_v60 : Ref sig .tc := ⟨.hbm, 168, rfl⟩
abbrev main_c_17 : Ref sig .tc := ⟨.hbm, 169, rfl⟩
abbrev main_c_18 : Ref sig .tc := ⟨.hbm, 170, rfl⟩
abbrev main_call5_v0 : Ref sig .tc := ⟨.hbm, 171, rfl⟩
abbrev main_call5_v1 : Ref sig .tc := ⟨.hbm, 172, rfl⟩
abbrev main_call5_v2 : Ref sig .tc := ⟨.hbm, 173, rfl⟩
abbrev main_call5_v3 : Ref sig .tc := ⟨.hbm, 174, rfl⟩
abbrev main_call5_v4 : Ref sig .tc := ⟨.hbm, 175, rfl⟩
abbrev main_v61 : Ref sig .tc := ⟨.hbm, 176, rfl⟩
abbrev main_v62 : Ref sig .tc := ⟨.hbm, 177, rfl⟩
abbrev main_v63 : Ref sig .tc := ⟨.hbm, 178, rfl⟩
abbrev main_c_19 : Ref sig .tc := ⟨.hbm, 179, rfl⟩
abbrev main_v64 : Ref sig .tc := ⟨.hbm, 180, rfl⟩
abbrev main_v65 : Ref sig .tc := ⟨.hbm, 181, rfl⟩
abbrev main_c_20 : Ref sig .tc := ⟨.hbm, 182, rfl⟩
abbrev main_v66 : Ref sig .tc := ⟨.hbm, 183, rfl⟩
abbrev main_v67 : Ref sig .tc := ⟨.hbm, 184, rfl⟩
abbrev main_v68 : Ref sig .tc := ⟨.hbm, 185, rfl⟩
abbrev main_v69 : Ref sig .tc := ⟨.hbm, 186, rfl⟩
abbrev main_v70 : Ref sig .tc := ⟨.hbm, 187, rfl⟩
abbrev main_v71 : Ref sig .tc := ⟨.hbm, 188, rfl⟩
abbrev main_c_21 : Ref sig .tc := ⟨.hbm, 189, rfl⟩
abbrev main_v72 : Ref sig .tc := ⟨.hbm, 190, rfl⟩
abbrev main_v73 : Ref sig .tc := ⟨.hbm, 191, rfl⟩
abbrev main_c_22 : Ref sig .tc := ⟨.hbm, 192, rfl⟩
abbrev main_v74 : Ref sig .tc := ⟨.hbm, 193, rfl⟩
abbrev main_v75 : Ref sig .tc := ⟨.hbm, 194, rfl⟩
abbrev main_v76 : Ref sig .tc := ⟨.hbm, 195, rfl⟩
abbrev main_v77 : Ref sig .tc := ⟨.hbm, 196, rfl⟩
abbrev main_v78 : Ref sig .tc := ⟨.hbm, 197, rfl⟩
abbrev main_v79 : Ref sig .tc := ⟨.hbm, 198, rfl⟩
abbrev main_v80 : Ref sig .tc := ⟨.hbm, 199, rfl⟩
abbrev main_v81 : Ref sig .tc := ⟨.hbm, 200, rfl⟩
abbrev main_v82 : Ref sig .tc := ⟨.hbm, 201, rfl⟩
abbrev main_v83 : Ref sig .tc := ⟨.hbm, 202, rfl⟩
abbrev main_v84 : Ref sig .tc := ⟨.hbm, 203, rfl⟩
abbrev main_v85 : Ref sig .tc := ⟨.hbm, 204, rfl⟩
abbrev main_v86 : Ref sig .tc := ⟨.hbm, 205, rfl⟩
abbrev main_v87 : Ref sig .tc := ⟨.hbm, 206, rfl⟩
abbrev main_v88 : Ref sig .tc := ⟨.hbm, 207, rfl⟩
abbrev main_v89 : Ref sig .tc := ⟨.hbm, 208, rfl⟩
abbrev main_v90 : Ref sig .tc := ⟨.hbm, 209, rfl⟩
abbrev main_v91 : Ref sig .tc := ⟨.hbm, 210, rfl⟩
abbrev main_v92 : Ref sig .tc := ⟨.hbm, 211, rfl⟩
abbrev main_v93 : Ref sig .tc := ⟨.hbm, 212, rfl⟩
abbrev main_v94 : Ref sig .tc := ⟨.hbm, 213, rfl⟩
abbrev main_v95 : Ref sig .tc := ⟨.hbm, 214, rfl⟩
abbrev main_v96 : Ref sig .tc := ⟨.hbm, 215, rfl⟩
abbrev main_v97 : Ref sig .tc := ⟨.hbm, 216, rfl⟩
abbrev main_c_23 : Ref sig .tc := ⟨.hbm, 217, rfl⟩
abbrev main_v98 : Ref sig .tc := ⟨.hbm, 218, rfl⟩
abbrev main_v99 : Ref sig .tc := ⟨.hbm, 219, rfl⟩
abbrev main_c_24 : Ref sig .tc := ⟨.hbm, 220, rfl⟩
abbrev main_v100 : Ref sig .tc := ⟨.hbm, 221, rfl⟩
abbrev main_v101 : Ref sig .tc := ⟨.hbm, 222, rfl⟩
abbrev main_v102 : Ref sig .tc := ⟨.hbm, 223, rfl⟩
abbrev main_v103 : Ref sig .tc := ⟨.hbm, 224, rfl⟩
abbrev main_v104 : Ref sig .tc := ⟨.hbm, 225, rfl⟩
abbrev main_v105 : Ref sig .tc := ⟨.hbm, 226, rfl⟩
abbrev main_v106 : Ref sig .tc := ⟨.hbm, 227, rfl⟩
abbrev main_v107 : Ref sig .tc := ⟨.hbm, 228, rfl⟩
abbrev main_cst : Ref sig .tc := ⟨.hbm, 229, rfl⟩
abbrev main_v108 : Ref sig .tc := ⟨.hbm, 230, rfl⟩
abbrev main_cst_25 : Ref sig .tc := ⟨.hbm, 231, rfl⟩
abbrev main_v109 : Ref sig .tc := ⟨.hbm, 232, rfl⟩
abbrev main_v110 : Ref sig .tc := ⟨.hbm, 233, rfl⟩
abbrev main_v111 : Ref sig .tc := ⟨.hbm, 234, rfl⟩
abbrev main_v112 : Ref sig .tc := ⟨.hbm, 235, rfl⟩
abbrev main_v113 : Ref sig .tc := ⟨.hbm, 236, rfl⟩
abbrev main_v114 : Ref sig .tc := ⟨.hbm, 237, rfl⟩
abbrev main_v115 : Ref sig .tc := ⟨.hbm, 238, rfl⟩
abbrev main_v116 : Ref sig .tc := ⟨.hbm, 239, rfl⟩
abbrev main_v117 : Ref sig .tc := ⟨.hbm, 240, rfl⟩
abbrev main_v118 : Ref sig .tc := ⟨.hbm, 241, rfl⟩
abbrev main_v119 : Ref sig .tc := ⟨.hbm, 242, rfl⟩
abbrev main_v120 : Ref sig .tc := ⟨.hbm, 243, rfl⟩
abbrev main_v121 : Ref sig .tc := ⟨.hbm, 244, rfl⟩
abbrev main_v122 : Ref sig .tc := ⟨.hbm, 245, rfl⟩
abbrev main_v123 : Ref sig .tc := ⟨.hbm, 246, rfl⟩
abbrev main_v124 : Ref sig .tc := ⟨.hbm, 247, rfl⟩
abbrev main_cst_26 : Ref sig .tc := ⟨.hbm, 248, rfl⟩
abbrev main_v125 : Ref sig .tc := ⟨.hbm, 249, rfl⟩
abbrev main_v126 : Ref sig .tc := ⟨.hbm, 250, rfl⟩
abbrev main_v127 : Ref sig .tc := ⟨.hbm, 251, rfl⟩
abbrev main_v128 : Ref sig .tc := ⟨.hbm, 252, rfl⟩
abbrev main_v129 : Ref sig .tc := ⟨.hbm, 253, rfl⟩
abbrev main_v130 : Ref sig .tc := ⟨.hbm, 254, rfl⟩
abbrev main_v131 : Ref sig .tc := ⟨.hbm, 255, rfl⟩
abbrev main_v132 : Ref sig .tc := ⟨.hbm, 256, rfl⟩
abbrev main_v133 : Ref sig .tc := ⟨.hbm, 257, rfl⟩
abbrev main_v134 : Ref sig .tc := ⟨.hbm, 258, rfl⟩
abbrev main_v135 : Ref sig .tc := ⟨.hbm, 259, rfl⟩
abbrev main_v136 : Ref sig .tc := ⟨.hbm, 260, rfl⟩
abbrev main_v137 : Ref sig .tc := ⟨.hbm, 261, rfl⟩
abbrev main_v138 : Ref sig .tc := ⟨.hbm, 262, rfl⟩
abbrev main_v139 : Ref sig .tc := ⟨.hbm, 263, rfl⟩
abbrev main_v140 : Ref sig .tc := ⟨.hbm, 264, rfl⟩
abbrev main_v141 : Ref sig .tc := ⟨.hbm, 265, rfl⟩
abbrev main_v142 : Ref sig .tc := ⟨.hbm, 266, rfl⟩
abbrev main_cst_27 : Ref sig .tc := ⟨.hbm, 267, rfl⟩
abbrev main_v143 : Ref sig .tc := ⟨.hbm, 268, rfl⟩
abbrev main_v144 : Ref sig .tc := ⟨.hbm, 269, rfl⟩
abbrev main_v145 : Ref sig .tc := ⟨.hbm, 270, rfl⟩
abbrev main_v146 : Ref sig .tc := ⟨.hbm, 271, rfl⟩
abbrev main_v147 : Ref sig .tc := ⟨.hbm, 272, rfl⟩
abbrev main_v148 : Ref sig .tc := ⟨.hbm, 273, rfl⟩
abbrev main_v149 : Ref sig .tc := ⟨.hbm, 274, rfl⟩
abbrev main_v150 : Ref sig .tc := ⟨.hbm, 275, rfl⟩
abbrev main_v151 : Ref sig .tc := ⟨.hbm, 276, rfl⟩
abbrev main_v152 : Ref sig .tc := ⟨.hbm, 277, rfl⟩
abbrev main_v153 : Ref sig .tc := ⟨.hbm, 278, rfl⟩
abbrev main_v154 : Ref sig .tc := ⟨.hbm, 279, rfl⟩
abbrev main_v155 : Ref sig .tc := ⟨.hbm, 280, rfl⟩
abbrev main_v156 : Ref sig .tc := ⟨.hbm, 281, rfl⟩
abbrev main_v157 : Ref sig .tc := ⟨.hbm, 282, rfl⟩
abbrev main_v158 : Ref sig .tc := ⟨.hbm, 283, rfl⟩
abbrev main_v159 : Ref sig .tc := ⟨.hbm, 284, rfl⟩
abbrev main_v160 : Ref sig .tc := ⟨.hbm, 285, rfl⟩
abbrev main_v161 : Ref sig .tc := ⟨.hbm, 286, rfl⟩
abbrev main_cst_28 : Ref sig .tc := ⟨.hbm, 287, rfl⟩
abbrev main_v162 : Ref sig .tc := ⟨.hbm, 288, rfl⟩
abbrev main_v163 : Ref sig .tc := ⟨.hbm, 289, rfl⟩
abbrev main_v164 : Ref sig .tc := ⟨.hbm, 290, rfl⟩
abbrev main_v165 : Ref sig .tc := ⟨.hbm, 291, rfl⟩
abbrev main_c_29 : Ref sig .tc := ⟨.hbm, 292, rfl⟩
abbrev main_v166 : Ref sig .tc := ⟨.hbm, 293, rfl⟩
abbrev main_v167 : Ref sig .tc := ⟨.hbm, 294, rfl⟩
abbrev main_c_30 : Ref sig .tc := ⟨.hbm, 295, rfl⟩
abbrev main_v168 : Ref sig .tc := ⟨.hbm, 296, rfl⟩
abbrev main_v169 : Ref sig .tc := ⟨.hbm, 297, rfl⟩
abbrev main_v170 : Ref sig .tc := ⟨.hbm, 298, rfl⟩
abbrev main_v171 : Ref sig .tc := ⟨.hbm, 299, rfl⟩
abbrev main_v172 : Ref sig .tc := ⟨.hbm, 300, rfl⟩
abbrev main_v173 : Ref sig .tc := ⟨.hbm, 301, rfl⟩
abbrev main_v174 : Ref sig .tc := ⟨.hbm, 302, rfl⟩
abbrev main_v175 : Ref sig .tc := ⟨.hbm, 303, rfl⟩
abbrev main_cst_31 : Ref sig .tc := ⟨.hbm, 304, rfl⟩
abbrev main_v176 : Ref sig .tc := ⟨.hbm, 305, rfl⟩
abbrev main_cst_32 : Ref sig .tc := ⟨.hbm, 306, rfl⟩
abbrev main_v177 : Ref sig .tc := ⟨.hbm, 307, rfl⟩
abbrev main_cst_33 : Ref sig .tc := ⟨.hbm, 308, rfl⟩
abbrev main_v178 : Ref sig .tc := ⟨.hbm, 309, rfl⟩
abbrev main_v179 : Ref sig .tc := ⟨.hbm, 310, rfl⟩
abbrev main_v180 : Ref sig .tc := ⟨.hbm, 311, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x8704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x8704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  concatenates_S32768x1_S32768x1_S32768x1_S32768x3_d1 : Shape.Concatenates [S32768x1, S32768x1, S32768x1] S32768x3 1
  bcast_S32768x3_S32768x1x3_0_2 : S32768x3.BroadcastsInDim S32768x1x3 (![0, 2] : Fin 2 → Fin S32768x1x3.rank)
  bcast_S8x3_S1x8x3_1_2 : S8x3.BroadcastsInDim S1x8x3 (![1, 2] : Fin 2 → Fin S1x8x3.rank)
  bcast_S32768x1x3_S32768x8x3_0_1_2 : S32768x1x3.BroadcastsInDim S32768x8x3 (![0, 1, 2] : Fin 3 → Fin S32768x8x3.rank)
  bcast_S1x8x3_S32768x8x3_0_1_2 : S1x8x3.BroadcastsInDim S32768x8x3 (![0, 1, 2] : Fin 3 → Fin S32768x8x3.rank)
  slices_S32768x8x3_S32768x8x1_0_0_0 : S32768x8x3.Slices ![0, 0, 0] S32768x8x1
  shapeCasts_S32768x8x1_S32768x8 : S32768x8x1.ShapeCasts S32768x8
  bcast_S_S32768x8 : S_.BroadcastsInDim S32768x8 (![] : Fin 0 → Fin S32768x8.rank)
  slices_S32768x8x3_S32768x8x1_0_0_1 : S32768x8x3.Slices ![0, 0, 1] S32768x8x1
  slices_S32768x8x3_S32768x8x1_0_0_2 : S32768x8x3.Slices ![0, 0, 2] S32768x8x1
  shapeCasts_S32768x8_S262144 : S32768x8.ShapeCasts S262144
  concatenates_S32768_S262144_S294912_d0 : Shape.Concatenates [S32768, S262144] S294912 0
  bcast_S_S294912 : S_.BroadcastsInDim S294912 (![] : Fin 0 → Fin S294912.rank)
  bcast_S294912_S294912x1_0 : S294912.BroadcastsInDim S294912x1 (![0] : Fin 1 → Fin S294912x1.rank)
  bcast_S_S262144 : S_.BroadcastsInDim S262144 (![] : Fin 0 → Fin S262144.rank)
  bcast_S262144_S262144x1_0 : S262144.BroadcastsInDim S262144x1 (![0] : Fin 1 → Fin S262144x1.rank)
  slices_S294912x3_S32768x3_0_0 : S294912x3.Slices ![0, 0] S32768x3
  slices_S294912x3_S262144x3_32768_0 : S294912x3.Slices ![32768, 0] S262144x3
  concatenates_S32768x3_S262144x3_S262144x3_S557056x3_d0 : Shape.Concatenates [S32768x3, S262144x3, S262144x3] S557056x3 0
  transposes_S557056x3_S3x557056_1_0 : S557056x3.Transposes [1, 0] S3x557056
  transposes_S3x128_S128x3_1_0 : S3x128.Transposes [1, 0] S128x3
  transposes_S128x128_S128x128_1_0 : S128x128.Transposes [1, 0] S128x128
  transposes_S128x1_S1x128_1_0 : S128x1.Transposes [1, 0] S1x128
  shapeCasts_S128_S128x1 : S128.ShapeCasts S128x1
  shapeCasts_S1_S1x1 : S1.ShapeCasts S1x1
  inb_S3x8704_S3x8704_0_0 : ∀ a, (![0, 0] : Fin 2 → Nat) a + S3x8704.size a ≤ S3x8704.size a
  h_S3x8704 : 0 < S3x8704.numel
  shapeCasts_S3x8704_S3x8704 : S3x8704.ShapeCasts S3x8704
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x8704 : S128x1.Broadcasts S128x8704
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x8704 : S1x1.Broadcasts S1x8704
  inb_S1x8704_S1x8704_0_0 : ∀ a, (![0, 0] : Fin 2 → Nat) a + S1x8704.size a ≤ S1x8704.size a
  h_S1x8704 : 0 < S1x8704.numel
  shapeCasts_S1x557056_S557056 : S1x557056.ShapeCasts S557056
  slices_S557056_S32768_0 : S557056.Slices ![0] S32768
  slices_S557056_S262144_32768 : S557056.Slices ![32768] S262144
  shapeCasts_S262144_S32768x8 : S262144.ShapeCasts S32768x8
  slices_S557056_S262144_294912 : S557056.Slices ![294912] S262144
  shapeCasts_S32768x1_S32768 : S32768x1.ShapeCasts S32768
  reducesTo_S32768_S_d0 : S32768.ReducesTo [0] S_
  h_S_ : 0 < S_.numel
  slices_S32768x8_S32768x1_0_7 : S32768x8.Slices ![0, 7] S32768x1
  slices_S32768x8_S32768x1_0_0 : S32768x8.Slices ![0, 0] S32768x1
  slices_S32768x8_S32768x1_0_3 : S32768x8.Slices ![0, 3] S32768x1
  slices_S32768x8_S32768x1_0_4 : S32768x8.Slices ![0, 4] S32768x1
  slices_S32768x8_S32768x1_0_5 : S32768x8.Slices ![0, 5] S32768x1
  slices_S32768x8_S32768x1_0_2 : S32768x8.Slices ![0, 2] S32768x1
  gather_S2097152x3_S294912x1_S294912x3_1_0_n_n_0_1_13_wf : GatherDims.WF S2097152x3 S294912x1 S294912x3 [1] [0] [] [0] [] 1 ![1, 3]
  gather_S2048383x3_S262144x1_S262144x3_1_0_n_n_0_1_13_wf : GatherDims.WF S2048383x3 S262144x1 S262144x3 [1] [0] [] [0] [] 1 ![1, 3]
  dot_S128x3_S3x8704_S128x8704_1_0_0_1_n_n_wf : DotDims.WF S128x3 S3x8704 S128x8704 [1] [0] [0] [1] [] []
  dot_S128x128_S128x8704_S128x8704_1_0_0_1_n_n_wf : DotDims.WF S128x128 S128x8704 S128x8704 [1] [0] [0] [1] [] []
  dot_S1x128_S128x8704_S1x8704_1_0_0_1_n_n_wf : DotDims.WF S1x128 S128x8704 S1x8704 [1] [0] [0] [1] [] []
  gather_S2097152x1_S32768x1_S32768x1_1_0_n_n_0_1_11_wf : GatherDims.WF S2097152x1 S32768x1 S32768x1 [1] [0] [] [0] [] 1 ![1, 1]
  gather_S2097152_S32768x1_S32768_n_0_n_n_0_1_1_wf : GatherDims.WF S2097152 S32768x1 S32768 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x8704.size a ≤ S3x557056.size a
  hwx0_0 : ∀ i : grid0.Coords, EltTy.bits .f32 = 32 ∨ (Rect.block (s := S3x557056) S3x8704.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x3.size a ≤ S128x3.size a
  hwx0_1 : ∀ i : grid0.Coords, EltTy.bits .f32 = 32 ∨ (Rect.block (s := S128x3) S128x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .f32 = 32 ∨ (Rect.block (s := S128x1) S128x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x8704.size a ≤ S1x557056.size a
  hwx0_9 : ∀ i : grid0.Coords, EltTy.bits .f32 = 32 ∨ (Rect.block (s := S1x557056) S1x8704.size (cc0_transform_9 i) (hinb0_9 i)).WholeWords (EltTy.packing .f32)

variable [Facts₀]

def gather_S2097152x3_S294912x1_S294912x3_1_0_n_n_0_1_13 : GatherDims S2097152x3 S294912x1 S294912x3 where
  offsetDims := [1]
  collapsedSliceDims := [0]
  operandBatchingDims := []
  startIndicesBatchingDims := []
  startIndexMap := [0]
  indexVectorDim := 1
  sliceSizes := ![1, 3]
  wf := gather_S2097152x3_S294912x1_S294912x3_1_0_n_n_0_1_13_wf
def gather_S2048383x3_S262144x1_S262144x3_1_0_n_n_0_1_13 : GatherDims S2048383x3 S262144x1 S262144x3 where
  offsetDims := [1]
  collapsedSliceDims := [0]
  operandBatchingDims := []
  startIndicesBatchingDims := []
  startIndexMap := [0]
  indexVectorDim := 1
  sliceSizes := ![1, 3]
  wf := gather_S2048383x3_S262144x1_S262144x3_1_0_n_n_0_1_13_wf
def dot_S128x3_S3x8704_S128x8704_1_0_0_1_n_n : DotDims S128x3 S3x8704 S128x8704 where
  lhsContracting := [1]
  rhsContracting := [0]
  lhsNonContracting := [0]
  rhsNonContracting := [1]
  lhsBatch := []
  rhsBatch := []
  wf := dot_S128x3_S3x8704_S128x8704_1_0_0_1_n_n_wf
def dot_S128x128_S128x8704_S128x8704_1_0_0_1_n_n : DotDims S128x128 S128x8704 S128x8704 where
  lhsContracting := [1]
  rhsContracting := [0]
  lhsNonContracting := [0]
  rhsNonContracting := [1]
  lhsBatch := []
  rhsBatch := []
  wf := dot_S128x128_S128x8704_S128x8704_1_0_0_1_n_n_wf
def dot_S1x128_S128x8704_S1x8704_1_0_0_1_n_n : DotDims S1x128 S128x8704 S1x8704 where
  lhsContracting := [1]
  rhsContracting := [0]
  lhsNonContracting := [0]
  rhsNonContracting := [1]
  lhsBatch := []
  rhsBatch := []
  wf := dot_S1x128_S128x8704_S1x8704_1_0_0_1_n_n_wf
def gather_S2097152x1_S32768x1_S32768x1_1_0_n_n_0_1_11 : GatherDims S2097152x1 S32768x1 S32768x1 where
  offsetDims := [1]
  collapsedSliceDims := [0]
  operandBatchingDims := []
  startIndicesBatchingDims := []
  startIndexMap := [0]
  indexVectorDim := 1
  sliceSizes := ![1, 1]
  wf := gather_S2097152x1_S32768x1_S32768x1_1_0_n_n_0_1_11_wf
def gather_S2097152_S32768x1_S32768_n_0_n_n_0_1_1 : GatherDims S2097152 S32768x1 S32768 where
  offsetDims := []
  collapsedSliceDims := [0]
  operandBatchingDims := []
  startIndicesBatchingDims := []
  startIndexMap := [0]
  indexVectorDim := 1
  sliceSizes := ![1]
  wf := gather_S2097152_S32768x1_S32768_n_0_n_n_0_1_1_wf

abbrev win0_0 : Pipeline.Window sig grid0 :=
  Pipeline.Window.ofSpec (Memref.whole main_v82) S3x8704.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v83) S128x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v87) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v84) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v88) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v85) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v89) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v86) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v90) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v91) S1x8704.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2097152x3 : Shape := ⟨2, ![2097152, 3]⟩
abbrev S2097152x1 : Shape := ⟨2, ![2097152, 1]⟩
abbrev S2048383x3 : Shape := ⟨2, ![2048383, 3]⟩
abbrev S2097152 : Shape := ⟨1, ![2097152]⟩
abbrev S3x128 : Shape := ⟨2, ![3, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S32768 : Shape := ⟨1, ![32768]⟩
abbrev S8x3 : Shape := ⟨2, ![8, 3]⟩
abbrev S_ : Shape := ⟨0, ![]⟩
abbrev S32768x1 : Shape := ⟨2, ![32768, 1]⟩
abbrev S32768x3 : Shape := ⟨2, ![32768, 3]⟩
abbrev S32768x128 : Shape := ⟨2, ![32768, 128]⟩
abbrev S1x128 : Shape := ⟨2, ![1, 128]⟩
abbrev S1x1 : Shape := ⟨2, ![1, 1]⟩
abbrev S32768x1x3 : Shape := ⟨3, ![32768, 1, 3]⟩
abbrev S1x8x3 : Shape := ⟨3, ![1, 8, 3]⟩
abbrev S32768x8x3 : Shape := ⟨3, ![32768, 8, 3]⟩
abbrev S32768x8x1 : Shape := ⟨3, ![32768, 8, 1]⟩
abbrev S32768x8 : Shape := ⟨2, ![32768, 8]⟩
abbrev S262144x3 : Shape := ⟨2, ![262144, 3]⟩
abbrev S262144x128 : Shape := ⟨2, ![262144, 128]⟩
abbrev S262144x1 : Shape := ⟨2, ![262144, 1]⟩

abbrev nBuf : Space → Nat
  | .hbm => 361
  | .vmem => 0
  | .smem => 0
  | _ => 0

abbrev hbmTy0_0 (i : Nat) : BufTy := match i % 128 with
  | 0 => ⟨S2097152x3, .f32⟩
  | 1 => ⟨S2097152x1, .f32⟩
  | 2 => ⟨S2048383x3, .f32⟩
  | 3 => ⟨S2097152, .f32⟩
  | 4 => ⟨S3x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x1, .f32⟩
  | 11 => ⟨S1, .f32⟩
  | 12 => ⟨S32768, .i32⟩
  | 13 => ⟨S8x3, .i32⟩
  | 14 => ⟨S8x3, .i32⟩
  | 15 => ⟨S_, .i32⟩
  | 16 => ⟨S_, .i32⟩
  | 17 => ⟨S32768, .i32⟩
  | 18 => ⟨S32768, .i32⟩
  | 19 => ⟨S32768, .i32⟩
  | 20 => ⟨S_, .i32⟩
  | 21 => ⟨S32768, .i32⟩
  | 22 => ⟨S32768, .i1⟩
  | 23 => ⟨S32768, .i32⟩
  | 24 => ⟨S32768, .i32⟩
  | 25 => ⟨S_, .i32⟩
  | 26 => ⟨S32768, .i32⟩
  | 27 => ⟨S32768, .i1⟩
  | 28 => ⟨S32768, .i1⟩
  | 29 => ⟨S_, .i32⟩
  | 30 => ⟨S32768, .i32⟩
  | 31 => ⟨S32768, .i32⟩
  | 32 => ⟨S32768, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S32768, .i32⟩
  | 40 => ⟨S32768, .i32⟩
  | 41 => ⟨S_, .i32⟩
  | 42 => ⟨S32768, .i32⟩
  | 43 => ⟨S32768, .i1⟩
  | 44 => ⟨S_, .i32⟩
  | 45 => ⟨S32768, .i32⟩
  | 46 => ⟨S32768, .i1⟩
  | 47 => ⟨S_, .i32⟩
  | 48 => ⟨S_, .i1⟩
  | 49 => ⟨S32768, .i1⟩
  | 50 => ⟨S32768, .i1⟩
  | 51 => ⟨S32768, .i1⟩
  | 52 => ⟨S32768, .i32⟩
  | 53 => ⟨S32768, .i32⟩
  | 54 => ⟨S32768, .i32⟩
  | 55 => ⟨S_, .i32⟩
  | 56 => ⟨S_, .i32⟩
  | 57 => ⟨S32768, .i32⟩
  | 58 => ⟨S32768, .i32⟩
  | 59 => ⟨S32768, .i32⟩
  | 60 => ⟨S_, .i32⟩
  | 61 => ⟨S32768, .i32⟩
  | 62 => ⟨S32768, .i1⟩
  | 63 => ⟨S32768, .i32⟩
  | 64 => ⟨S32768, .i32⟩
  | 65 => ⟨S_, .i32⟩
  | 66 => ⟨S32768, .i32⟩
  | 67 => ⟨S32768, .i1⟩
  | 68 => ⟨S32768, .i1⟩
  | 69 => ⟨S_, .i32⟩
  | 70 => ⟨S32768, .i32⟩
  | 71 => ⟨S32768, .i32⟩
  | 72 => ⟨S32768, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S32768, .i32⟩
  | 80 => ⟨S32768, .i32⟩
  | 81 => ⟨S_, .i32⟩
  | 82 => ⟨S32768, .i32⟩
  | 83 => ⟨S32768, .i1⟩
  | 84 => ⟨S_, .i32⟩
  | 85 => ⟨S32768, .i32⟩
  | 86 => ⟨S32768, .i1⟩
  | 87 => ⟨S_, .i32⟩
  | 88 => ⟨S_, .i1⟩
  | 89 => ⟨S32768, .i1⟩
  | 90 => ⟨S32768, .i1⟩
  | 91 => ⟨S32768, .i1⟩
  | 92 => ⟨S32768, .i32⟩
  | 93 => ⟨S32768, .i32⟩
  | 94 => ⟨S32768, .i32⟩
  | 95 => ⟨S_, .i32⟩
  | 96 => ⟨S32768, .i32⟩
  | 97 => ⟨S32768, .i1⟩
  | 98 => ⟨S_, .i32⟩
  | 99 => ⟨S32768, .i32⟩
  | 100 => ⟨S32768, .i1⟩
  | 101 => ⟨S32768, .i1⟩
  | 102 => ⟨S_, .i32⟩
  | 103 => ⟨S32768, .i32⟩
  | 104 => ⟨S32768, .i1⟩
  | 105 => ⟨S32768, .i1⟩
  | 106 => ⟨S_, .i32⟩
  | 107 => ⟨S32768, .i32⟩
  | 108 => ⟨S32768, .i1⟩
  | 109 => ⟨S32768, .i1⟩
  | 110 => ⟨S_, .i32⟩
  | 111 => ⟨S32768, .i32⟩
  | 112 => ⟨S32768, .i1⟩
  | 113 => ⟨S32768, .i1⟩
  | 114 => ⟨S_, .i32⟩
  | 115 => ⟨S32768, .i32⟩
  | 116 => ⟨S32768, .i1⟩
  | 117 => ⟨S32768, .i1⟩
  | 118 => ⟨S32768, .f32⟩
  | 119 => ⟨S_, .i32⟩
  | 120 => ⟨S32768, .i32⟩
  | 121 => ⟨S32768, .i1⟩
  | 122 => ⟨S_, .i32⟩
  | 123 => ⟨S32768, .i32⟩
  | 124 => ⟨S32768, .i32⟩
  | 125 => ⟨S32768, .i32⟩
  | 126 => ⟨S32768x1, .i32⟩
  | 127 => ⟨S32768x3, .f32⟩
  | _ => ⟨S2097152x3, .f32⟩

abbrev hbmTy0_1 (i : Nat) : BufTy := match i % 128 with
  | 0 => ⟨S32768x128, .f32⟩
  | 1 => ⟨S1x128, .f32⟩
  | 2 => ⟨S32768x128, .f32⟩
  | 3 => ⟨S32768x128, .f32⟩
  | 4 => ⟨S32768x128, .f32⟩
  | 5 => ⟨S32768x128, .f32⟩
  | 6 => ⟨S1x128, .f32⟩
  | 7 => ⟨S32768x128, .f32⟩
  | 8 => ⟨S32768x128, .f32⟩
  | 9 => ⟨S32768x128, .f32⟩
  | 10 => ⟨S32768x128, .f32⟩
  | 11 => ⟨S1x128, .f32⟩
  | 12 => ⟨S32768x128, .f32⟩
  | 13 => ⟨S32768x128, .f32⟩
  | 14 => ⟨S32768x128, .f32⟩
  | 15 => ⟨S32768x1, .f32⟩
  | 16 => ⟨S1x1, .f32⟩
  | 17 => ⟨S32768x1, .f32⟩
  | 18 => ⟨S32768x1, .f32⟩
  | 19 => ⟨S32768, .f32⟩
  | 20 => ⟨S_, .i32⟩
  | 21 => ⟨S32768, .i32⟩
  | 22 => ⟨S32768, .i1⟩
  | 23 => ⟨S_, .i32⟩
  | 24 => ⟨S32768, .i32⟩
  | 25 => ⟨S32768, .i32⟩
  | 26 => ⟨S32768, .i32⟩
  | 27 => ⟨S32768x1, .i32⟩
  | 28 => ⟨S32768x1, .f32⟩
  | 29 => ⟨S32768, .f32⟩
  | 30 => ⟨S32768, .f32⟩
  | 31 => ⟨S32768, .f32⟩
  | 32 => ⟨S_, .f32⟩
  | 33 => ⟨S_, .f32⟩
  | 34 => ⟨S_, .f32⟩
  | 35 => ⟨S_, .f32⟩
  | 36 => ⟨S32768x1, .i32⟩
  | 37 => ⟨S32768x1, .i32⟩
  | 38 => ⟨S32768x1, .i32⟩
  | 39 => ⟨S32768x3, .i32⟩
  | 40 => ⟨S32768x1x3, .i32⟩
  | 41 => ⟨S1x8x3, .i32⟩
  | 42 => ⟨S32768x8x3, .i32⟩
  | 43 => ⟨S32768x8x3, .i32⟩
  | 44 => ⟨S32768x8x3, .i32⟩
  | 45 => ⟨S32768x1x3, .i32⟩
  | 46 => ⟨S1x8x3, .i32⟩
  | 47 => ⟨S32768x8x3, .i32⟩
  | 48 => ⟨S32768x8x3, .i32⟩
  | 49 => ⟨S32768x8x3, .i32⟩
  | 50 => ⟨S32768x8x1, .i32⟩
  | 51 => ⟨S32768x8, .i32⟩
  | 52 => ⟨S_, .i32⟩
  | 53 => ⟨S32768x8, .i32⟩
  | 54 => ⟨S32768x8, .i32⟩
  | 55 => ⟨S32768x8x1, .i32⟩
  | 56 => ⟨S32768x8, .i32⟩
  | 57 => ⟨S_, .i32⟩
  | 58 => ⟨S32768x8, .i32⟩
  | 59 => ⟨S32768x8, .i32⟩
  | 60 => ⟨S32768x8, .i32⟩
  | 61 => ⟨S32768x8x1, .i32⟩
  | 62 => ⟨S32768x8, .i32⟩
  | 63 => ⟨S32768x8, .i32⟩
  | 64 => ⟨S_, .i32⟩
  | 65 => ⟨S_, .i32⟩
  | 66 => ⟨S_, .i32⟩
  | 67 => ⟨S32768x8, .i32⟩
  | 68 => ⟨S32768x8, .i32⟩
  | 69 => ⟨S_, .i32⟩
  | 70 => ⟨S32768x8, .i32⟩
  | 71 => ⟨S32768x8, .i32⟩
  | 72 => ⟨S32768x8x1, .i32⟩
  | 73 => ⟨S32768x8, .i32⟩
  | 74 => ⟨S_, .i32⟩
  | 75 => ⟨S32768x8, .i32⟩
  | 76 => ⟨S32768x8, .i32⟩
  | 77 => ⟨S32768x8x1, .i32⟩
  | 78 => ⟨S32768x8, .i32⟩
  | 79 => ⟨S_, .i32⟩
  | 80 => ⟨S32768x8, .i32⟩
  | 81 => ⟨S32768x8, .i32⟩
  | 82 => ⟨S32768x8, .i32⟩
  | 83 => ⟨S32768x8x1, .i32⟩
  | 84 => ⟨S32768x8, .i32⟩
  | 85 => ⟨S32768x8, .i32⟩
  | 86 => ⟨S_, .i32⟩
  | 87 => ⟨S_, .i32⟩
  | 88 => ⟨S_, .i32⟩
  | 89 => ⟨S32768x8, .i32⟩
  | 90 => ⟨S32768x8, .i32⟩
  | 91 => ⟨S_, .i32⟩
  | 92 => ⟨S32768x8, .i32⟩
  | 93 => ⟨S32768x8, .i32⟩
  | 94 => ⟨S_, .i32⟩
  | 95 => ⟨S32768x8, .i32⟩
  | 96 => ⟨S32768x8, .i1⟩
  | 97 => ⟨S_, .i32⟩
  | 98 => ⟨S32768x8, .i32⟩
  | 99 => ⟨S32768x8, .i32⟩
  | 100 => ⟨S32768x8, .i32⟩
  | 101 => ⟨S32768x8x1, .i32⟩
  | 102 => ⟨S32768x8x3, .f32⟩
  | 103 => ⟨S262144x3, .f32⟩
  | 104 => ⟨S262144x128, .f32⟩
  | 105 => ⟨S1x128, .f32⟩
  | 106 => ⟨S262144x128, .f32⟩
  | 107 => ⟨S262144x128, .f32⟩
  | 108 => ⟨S262144x128, .f32⟩
  | 109 => ⟨S262144x128, .f32⟩
  | 110 => ⟨S1x128, .f32⟩
  | 111 => ⟨S262144x128, .f32⟩
  | 112 => ⟨S262144x128, .f32⟩
  | 113 => ⟨S262144x128, .f32⟩
  | 114 => ⟨S262144x128, .f32⟩
  | 115 => ⟨S1x128, .f32⟩
  | 116 => ⟨S262144x128, .f32⟩
  | 117 => ⟨S262144x128, .f32⟩
  | 118 => ⟨S262144x128, .f32⟩
  | 119 => ⟨S262144x1, .f32⟩
  | 120 => ⟨S1x1, .f32⟩
  | 121 => ⟨S262144x1, .f32⟩
  | 122 => ⟨S262144x1, .f32⟩
  | 123 => ⟨S32768x8, .f32⟩
  | 124 => ⟨S_, .i32⟩
  | 125 => ⟨S32768x8, .i32⟩
  | 126 => ⟨S32768x8, .i1⟩
  | 127 => ⟨S_, .i32⟩
  | _ => ⟨S2097152x3, .f32⟩

abbrev hbmTy0_2 (i : Nat) : BufTy := match i % 128 with
  | 0 => ⟨S32768x8, .i32⟩
  | 1 => ⟨S32768x8, .i32⟩
  | 2 => ⟨S32768x8, .i32⟩
  | 3 => ⟨S32768x8x1, .i32⟩
  | 4 => ⟨S32768x8x3, .f32⟩
  | 5 => ⟨S262144x3, .f32⟩
  | 6 => ⟨S262144x128, .f32⟩
  | 7 => ⟨S1x128, .f32⟩
  | 8 => ⟨S262144x128, .f32⟩
  | 9 => ⟨S262144x128, .f32⟩
  | 10 => ⟨S262144x128, .f32⟩
  | 11 => ⟨S262144x128, .f32⟩
  | 12 => ⟨S1x128, .f32⟩
  | 13 => ⟨S262144x128, .f32⟩
  | 14 => ⟨S262144x128, .f32⟩
  | 15 => ⟨S262144x128, .f32⟩
  | 16 => ⟨S262144x128, .f32⟩
  | 17 => ⟨S1x128, .f32⟩
  | 18 => ⟨S262144x128, .f32⟩
  | 19 => ⟨S262144x128, .f32⟩
  | 20 => ⟨S262144x128, .f32⟩
  | 21 => ⟨S262144x1, .f32⟩
  | 22 => ⟨S1x1, .f32⟩
  | 23 => ⟨S262144x1, .f32⟩
  | 24 => ⟨S262144x1, .f32⟩
  | 25 => ⟨S32768x8, .f32⟩
  | 26 => ⟨S32768x1, .f32⟩
  | 27 => ⟨S32768, .f32⟩
  | 28 => ⟨S32768x1, .f32⟩
  | 29 => ⟨S32768, .f32⟩
  | 30 => ⟨S32768x1, .f32⟩
  | 31 => ⟨S32768, .f32⟩
  | 32 => ⟨S32768x1, .f32⟩
  | 33 => ⟨S32768, .f32⟩
  | 34 => ⟨S32768, .f32⟩
  | 35 => ⟨S32768, .f32⟩
  | 36 => ⟨S32768, .f32⟩
  | 37 => ⟨S32768, .f32⟩
  | 38 => ⟨S32768, .f32⟩
  | 39 => ⟨S32768, .f32⟩
  | 40 => ⟨S32768, .f32⟩
  | 41 => ⟨S_, .f32⟩
  | 42 => ⟨S32768, .f32⟩
  | 43 => ⟨S32768, .f32⟩
  | 44 => ⟨S32768, .f32⟩
  | 45 => ⟨S32768x1, .f32⟩
  | 46 => ⟨S32768, .f32⟩
  | 47 => ⟨S32768x1, .f32⟩
  | 48 => ⟨S32768, .f32⟩
  | 49 => ⟨S32768x1, .f32⟩
  | 50 => ⟨S32768, .f32⟩
  | 51 => ⟨S32768x1, .f32⟩
  | 52 => ⟨S32768, .f32⟩
  | 53 => ⟨S32768, .f32⟩
  | 54 => ⟨S32768, .f32⟩
  | 55 => ⟨S32768, .f32⟩
  | 56 => ⟨S32768, .f32⟩
  | 57 => ⟨S32768, .f32⟩
  | 58 => ⟨S32768, .f32⟩
  | 59 => ⟨S32768, .f32⟩
  | 60 => ⟨S_, .f32⟩
  | 61 => ⟨S32768, .f32⟩
  | 62 => ⟨S32768, .f32⟩
  | 63 => ⟨S32768, .f32⟩
  | 64 => ⟨S32768, .f32⟩
  | 65 => ⟨S32768x1, .f32⟩
  | 66 => ⟨S32768, .f32⟩
  | 67 => ⟨S32768x1, .f32⟩
  | 68 => ⟨S32768, .f32⟩
  | 69 => ⟨S32768x1, .f32⟩
  | 70 => ⟨S32768, .f32⟩
  | 71 => ⟨S32768x1, .f32⟩
  | 72 => ⟨S32768, .f32⟩
  | 73 => ⟨S32768, .f32⟩
  | 74 => ⟨S32768, .f32⟩
  | 75 => ⟨S32768, .f32⟩
  | 76 => ⟨S32768, .f32⟩
  | 77 => ⟨S32768, .f32⟩
  | 78 => ⟨S32768, .f32⟩
  | 79 => ⟨S32768, .f32⟩
  | 80 => ⟨S_, .f32⟩
  | 81 => ⟨S32768, .f32⟩
  | 82 => ⟨S32768, .f32⟩
  | 83 => ⟨S32768, .f32⟩
  | 84 => ⟨S32768, .f32⟩
  | 85 => ⟨S_, .i32⟩
  | 86 => ⟨S32768, .i32⟩
  | 87 => ⟨S32768, .i1⟩
  | 88 => ⟨S_, .i32⟩
  | 89 => ⟨S32768, .i32⟩
  | 90 => ⟨S32768, .i32⟩
  | 91 => ⟨S32768, .i32⟩
  | 92 => ⟨S32768x1, .i32⟩
  | 93 => ⟨S32768, .f32⟩
  | 94 => ⟨S32768, .f32⟩
  | 95 => ⟨S32768, .f32⟩
  | 96 => ⟨S32768, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | _ => ⟨S2097152x3, .f32⟩

abbrev hbmTy (i : Nat) : BufTy := match i / 128 with
  | 0 => hbmTy0_0 i
  | 1 => hbmTy0_1 i
  | 2 => hbmTy0_2 i
  | _ => ⟨S2097152x3, .f32⟩

abbrev bufTy : (tb : Table) → Fin (tcTables nBuf tb) → BufTy
  | .hbm, ⟨i, _⟩ => hbmTy i
  | _, _ => ⟨S2097152x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v0 : Ref sig .tc := ⟨.hbm, 32, rfl⟩
abbrev main_c_2 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_v5 : Ref sig .tc := ⟨.hbm, 42, rfl⟩
abbrev main_call1_v6 : Ref sig .tc := ⟨.hbm, 43, rfl⟩
abbrev main_call1_c_2 : Ref sig .tc := ⟨.hbm, 44, rfl⟩
abbrev main_call1_v7 : Ref sig .tc := ⟨.hbm, 45, rfl⟩
abbrev main_call1_v8 : Ref sig .tc := ⟨.hbm, 46, rfl⟩
abbrev main_call1_c_3 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_v1 : Ref sig .tc := ⟨.hbm, 54, rfl⟩
abbrev main_c_3 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_c : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_0 : Ref sig .tc := ⟨.hbm, 69, rfl⟩
abbrev main_call2_v12 : Ref sig .tc := ⟨.hbm, 70, rfl⟩
abbrev main_call2_v13 : Ref sig .tc := ⟨.hbm, 71, rfl⟩
abbrev main_v2 : Ref sig .tc := ⟨.hbm, 72, rfl⟩
abbrev main_c_4 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v3 : Ref sig .tc := ⟨.hbm, 94, rfl⟩
abbrev main_c_5 : Ref sig .tc := ⟨.hbm, 95, rfl⟩
abbrev main_v4 : Ref sig .tc := ⟨.hbm, 96, rfl⟩
abbrev main_v5 : Ref sig .tc := ⟨.hbm, 97, rfl⟩
abbrev main_c_6 : Ref sig .tc := ⟨.hbm, 98, rfl⟩
abbrev main_v6 : Ref sig .tc := ⟨.hbm, 99, rfl⟩
abbrev main_v7 : Ref sig .tc := ⟨.hbm, 100, rfl⟩
abbrev main_v8 : Ref sig .tc := ⟨.hbm, 101, rfl⟩
abbrev main_c_7 : Ref sig .tc := ⟨.hbm, 102, rfl⟩
abbrev main_v9 : Ref sig .tc := ⟨.hbm, 103, rfl⟩
abbrev main_v10 : Ref sig .tc := ⟨.hbm, 104, rfl⟩
abbrev main_v11 : Ref sig .tc := ⟨.hbm, 105, rfl⟩
abbrev main_c_8 : Ref sig .tc := ⟨.hbm, 106, rfl⟩
abbrev main_v12 : Ref sig .tc := ⟨.hbm, 107, rfl⟩
abbrev main_v13 : Ref sig .tc := ⟨.hbm, 108, rfl⟩
abbrev main_v14 : Ref sig .tc := ⟨.hbm, 109, rfl⟩
abbrev main_c_9 : Ref sig .tc := ⟨.hbm, 110, rfl⟩
abbrev main_v15 : Ref sig .tc := ⟨.hbm, 111, rfl⟩
abbrev main_v16 : Ref sig .tc := ⟨.hbm, 112, rfl⟩
abbrev main_v17 : Ref sig .tc := ⟨.hbm, 113, rfl⟩
abbrev main_c_10 : Ref sig .tc := ⟨.hbm, 114, rfl⟩
abbrev main_v18 : Ref sig .tc := ⟨.hbm, 115, rfl⟩
abbrev main_v19 : Ref sig .tc := ⟨.hbm, 116, rfl⟩
abbrev main_v20 : Ref sig .tc := ⟨.hbm, 117, rfl⟩
abbrev main_v21 : Ref sig .tc := ⟨.hbm, 118, rfl⟩
abbrev main_c_11 : Ref sig .tc := ⟨.hbm, 119, rfl⟩
abbrev main_v22 : Ref sig .tc := ⟨.hbm, 120, rfl⟩
abbrev main_v23 : Ref sig .tc := ⟨.hbm, 121, rfl⟩
abbrev main_c_12 : Ref sig .tc := ⟨.hbm, 122, rfl⟩
abbrev main_v24 : Ref sig .tc := ⟨.hbm, 123, rfl⟩
abbrev main_v25 : Ref sig .tc := ⟨.hbm, 124, rfl⟩
abbrev main_v26 : Ref sig .tc := ⟨.hbm, 125, rfl⟩
abbrev main_v27 : Ref sig .tc := ⟨.hbm, 126, rfl⟩
abbrev main_v28 : Ref sig .tc := ⟨.hbm, 127, rfl⟩
abbrev main_v29 : Ref sig .tc := ⟨.hbm, 128, rfl⟩
abbrev main_v30 : Ref sig .tc := ⟨.hbm, 129, rfl⟩
abbrev main_v31 : Ref sig .tc := ⟨.hbm, 130, rfl⟩
abbrev main_v32 : Ref sig .tc := ⟨.hbm, 131, rfl⟩
abbrev main_v33 : Ref sig .tc := ⟨.hbm, 132, rfl⟩
abbrev main_v34 : Ref sig .tc := ⟨.hbm, 133, rfl⟩
abbrev main_v35 : Ref sig .tc := ⟨.hbm, 134, rfl⟩
abbrev main_v36 : Ref sig .tc := ⟨.hbm, 135, rfl⟩
abbrev main_v37 : Ref sig .tc := ⟨.hbm, 136, rfl⟩
abbrev main_v38 : Ref sig .tc := ⟨.hbm, 137, rfl⟩
abbrev main_v39 : Ref sig .tc := ⟨.hbm, 138, rfl⟩
abbrev main_v40 : Ref sig .tc := ⟨.hbm, 139, rfl⟩
abbrev main_v41 : Ref sig .tc := ⟨.hbm, 140, rfl⟩
abbrev main_v42 : Ref sig .tc := ⟨.hbm, 141, rfl⟩
abbrev main_v43 : Ref sig .tc := ⟨.hbm, 142, rfl⟩
abbrev main_v44 : Ref sig .tc := ⟨.hbm, 143, rfl⟩
abbrev main_v45 : Ref sig .tc := ⟨.hbm, 144, rfl⟩
abbrev main_v46 : Ref sig .tc := ⟨.hbm, 145, rfl⟩
abbrev main_v47 : Ref sig .tc := ⟨.hbm, 146, rfl⟩
abbrev main_v48 : Ref sig .tc := ⟨.hbm, 147, rfl⟩
abbrev main_c_13 : Ref sig .tc := ⟨.hbm, 148, rfl⟩
abbrev main_v49 : Ref sig .tc := ⟨.hbm, 149, rfl⟩
abbrev main_v50 : Ref sig .tc := ⟨.hbm, 150, rfl⟩
abbrev main_c_14 : Ref sig .tc := ⟨.hbm, 151, rfl⟩
abbrev main_v51 : Ref sig .tc := ⟨.hbm, 152, rfl⟩
abbrev main_v52 : Ref sig .tc := ⟨.hbm, 153, rfl⟩
abbrev main_v53 : Ref sig .tc := ⟨.hbm, 154, rfl⟩
abbrev main_v54 : Ref sig .tc := ⟨.hbm, 155, rfl⟩
abbrev main_v55 : Ref sig .tc := ⟨.hbm, 156, rfl⟩
abbrev main_v56 : Ref sig .tc := ⟨.hbm, 157, rfl⟩
abbrev main_v57 : Ref sig .tc := ⟨.hbm, 158, rfl⟩
abbrev main_v58 : Ref sig .tc := ⟨.hbm, 159, rfl⟩
abbrev main_cst : Ref sig .tc := ⟨.hbm, 160, rfl⟩
abbrev main_v59 : Ref sig .tc := ⟨.hbm, 161, rfl⟩
abbrev main_cst_15 : Ref sig .tc := ⟨.hbm, 162, rfl⟩
abbrev main_v60 : Ref sig .tc := ⟨.hbm, 163, rfl⟩
abbrev main_v61 : Ref sig .tc := ⟨.hbm, 164, rfl⟩
abbrev main_v62 : Ref sig .tc := ⟨.hbm, 165, rfl⟩
abbrev main_v63 : Ref sig .tc := ⟨.hbm, 166, rfl⟩
abbrev main_v64 : Ref sig .tc := ⟨.hbm, 167, rfl⟩
abbrev main_v65 : Ref sig .tc := ⟨.hbm, 168, rfl⟩
abbrev main_v66 : Ref sig .tc := ⟨.hbm, 169, rfl⟩
abbrev main_v67 : Ref sig .tc := ⟨.hbm, 170, rfl⟩
abbrev main_v68 : Ref sig .tc := ⟨.hbm, 171, rfl⟩
abbrev main_v69 : Ref sig .tc := ⟨.hbm, 172, rfl⟩
abbrev main_v70 : Ref sig .tc := ⟨.hbm, 173, rfl⟩
abbrev main_v71 : Ref sig .tc := ⟨.hbm, 174, rfl⟩
abbrev main_v72 : Ref sig .tc := ⟨.hbm, 175, rfl⟩
abbrev main_v73 : Ref sig .tc := ⟨.hbm, 176, rfl⟩
abbrev main_v74 : Ref sig .tc := ⟨.hbm, 177, rfl⟩
abbrev main_v75 : Ref sig .tc := ⟨.hbm, 178, rfl⟩
abbrev main_v76 : Ref sig .tc := ⟨.hbm, 179, rfl⟩
abbrev main_c_16 : Ref sig .tc := ⟨.hbm, 180, rfl⟩
abbrev main_v77 : Ref sig .tc := ⟨.hbm, 181, rfl⟩
abbrev main_v78 : Ref sig .tc := ⟨.hbm, 182, rfl⟩
abbrev main_v79 : Ref sig .tc := ⟨.hbm, 183, rfl⟩
abbrev main_v80 : Ref sig .tc := ⟨.hbm, 184, rfl⟩
abbrev main_c_17 : Ref sig .tc := ⟨.hbm, 185, rfl⟩
abbrev main_v81 : Ref sig .tc := ⟨.hbm, 186, rfl⟩
abbrev main_v82 : Ref sig .tc := ⟨.hbm, 187, rfl⟩
abbrev main_v83 : Ref sig .tc := ⟨.hbm, 188, rfl⟩
abbrev main_v84 : Ref sig .tc := ⟨.hbm, 189, rfl⟩
abbrev main_v85 : Ref sig .tc := ⟨.hbm, 190, rfl⟩
abbrev main_v86 : Ref sig .tc := ⟨.hbm, 191, rfl⟩
abbrev main_c_18 : Ref sig .tc := ⟨.hbm, 192, rfl⟩
abbrev main_c_19 : Ref sig .tc := ⟨.hbm, 193, rfl⟩
abbrev main_call4_v0 : Ref sig .tc := ⟨.hbm, 194, rfl⟩
abbrev main_call4_v1 : Ref sig .tc := ⟨.hbm, 195, rfl⟩
abbrev main_call4_v2 : Ref sig .tc := ⟨.hbm, 196, rfl⟩
abbrev main_call4_v3 : Ref sig .tc := ⟨.hbm, 197, rfl⟩
abbrev main_call4_v4 : Ref sig .tc := ⟨.hbm, 198, rfl⟩
abbrev main_v87 : Ref sig .tc := ⟨.hbm, 199, rfl⟩
abbrev main_v88 : Ref sig .tc := ⟨.hbm, 200, rfl⟩
abbrev main_v89 : Ref sig .tc := ⟨.hbm, 201, rfl⟩
abbrev main_c_20 : Ref sig .tc := ⟨.hbm, 202, rfl⟩
abbrev main_v90 : Ref sig .tc := ⟨.hbm, 203, rfl⟩
abbrev main_v91 : Ref sig .tc := ⟨.hbm, 204, rfl⟩
abbrev main_v92 : Ref sig .tc := ⟨.hbm, 205, rfl⟩
abbrev main_v93 : Ref sig .tc := ⟨.hbm, 206, rfl⟩
abbrev main_c_21 : Ref sig .tc := ⟨.hbm, 207, rfl⟩
abbrev main_v94 : Ref sig .tc := ⟨.hbm, 208, rfl⟩
abbrev main_v95 : Ref sig .tc := ⟨.hbm, 209, rfl⟩
abbrev main_v96 : Ref sig .tc := ⟨.hbm, 210, rfl⟩
abbrev main_v97 : Ref sig .tc := ⟨.hbm, 211, rfl⟩
abbrev main_v98 : Ref sig .tc := ⟨.hbm, 212, rfl⟩
abbrev main_v99 : Ref sig .tc := ⟨.hbm, 213, rfl⟩
abbrev main_c_22 : Ref sig .tc := ⟨.hbm, 214, rfl⟩
abbrev main_c_23 : Ref sig .tc := ⟨.hbm, 215, rfl⟩
abbrev main_call5_v0 : Ref sig .tc := ⟨.hbm, 216, rfl⟩
abbrev main_call5_v1 : Ref sig .tc := ⟨.hbm, 217, rfl⟩
abbrev main_call5_v2 : Ref sig .tc := ⟨.hbm, 218, rfl⟩
abbrev main_call5_v3 : Ref sig .tc := ⟨.hbm, 219, rfl⟩
abbrev main_call5_v4 : Ref sig .tc := ⟨.hbm, 220, rfl⟩
abbrev main_v100 : Ref sig .tc := ⟨.hbm, 221, rfl⟩
abbrev main_c_24 : Ref sig .tc := ⟨.hbm, 222, rfl⟩
abbrev main_v101 : Ref sig .tc := ⟨.hbm, 223, rfl⟩
abbrev main_v102 : Ref sig .tc := ⟨.hbm, 224, rfl⟩
abbrev main_c_25 : Ref sig .tc := ⟨.hbm, 225, rfl⟩
abbrev main_v103 : Ref sig .tc := ⟨.hbm, 226, rfl⟩
abbrev main_v104 : Ref sig .tc := ⟨.hbm, 227, rfl⟩
abbrev main_v105 : Ref sig .tc := ⟨.hbm, 228, rfl⟩
abbrev main_v106 : Ref sig .tc := ⟨.hbm, 229, rfl⟩
abbrev main_v107 : Ref sig .tc := ⟨.hbm, 230, rfl⟩
abbrev main_v108 : Ref sig .tc := ⟨.hbm, 231, rfl⟩
abbrev main_v109 : Ref sig .tc := ⟨.hbm, 232, rfl⟩
abbrev main_v110 : Ref sig .tc := ⟨.hbm, 233, rfl⟩
abbrev main_v111 : Ref sig .tc := ⟨.hbm, 234, rfl⟩
abbrev main_v112 : Ref sig .tc := ⟨.hbm, 235, rfl⟩
abbrev main_v113 : Ref sig .tc := ⟨.hbm, 236, rfl⟩
abbrev main_v114 : Ref sig .tc := ⟨.hbm, 237, rfl⟩
abbrev main_v115 : Ref sig .tc := ⟨.hbm, 238, rfl⟩
abbrev main_v116 : Ref sig .tc := ⟨.hbm, 239, rfl⟩
abbrev main_v117 : Ref sig .tc := ⟨.hbm, 240, rfl⟩
abbrev main_v118 : Ref sig .tc := ⟨.hbm, 241, rfl⟩
abbrev main_v119 : Ref sig .tc := ⟨.hbm, 242, rfl⟩
abbrev main_v120 : Ref sig .tc := ⟨.hbm, 243, rfl⟩
abbrev main_v121 : Ref sig .tc := ⟨.hbm, 244, rfl⟩
abbrev main_v122 : Ref sig .tc := ⟨.hbm, 245, rfl⟩
abbrev main_v123 : Ref sig .tc := ⟨.hbm, 246, rfl⟩
abbrev main_v124 : Ref sig .tc := ⟨.hbm, 247, rfl⟩
abbrev main_v125 : Ref sig .tc := ⟨.hbm, 248, rfl⟩
abbrev main_v126 : Ref sig .tc := ⟨.hbm, 249, rfl⟩
abbrev main_v127 : Ref sig .tc := ⟨.hbm, 250, rfl⟩
abbrev main_v128 : Ref sig .tc := ⟨.hbm, 251, rfl⟩
abbrev main_c_26 : Ref sig .tc := ⟨.hbm, 252, rfl⟩
abbrev main_v129 : Ref sig .tc := ⟨.hbm, 253, rfl⟩
abbrev main_v130 : Ref sig .tc := ⟨.hbm, 254, rfl⟩
abbrev main_c_27 : Ref sig .tc := ⟨.hbm, 255, rfl⟩
abbrev main_v131 : Ref sig .tc := ⟨.hbm, 256, rfl⟩
abbrev main_v132 : Ref sig .tc := ⟨.hbm, 257, rfl⟩
abbrev main_v133 : Ref sig .tc := ⟨.hbm, 258, rfl⟩
abbrev main_v134 : Ref sig .tc := ⟨.hbm, 259, rfl⟩
abbrev main_v135 : Ref sig .tc := ⟨.hbm, 260, rfl⟩
abbrev main_v136 : Ref sig .tc := ⟨.hbm, 261, rfl⟩
abbrev main_v137 : Ref sig .tc := ⟨.hbm, 262, rfl⟩
abbrev main_v138 : Ref sig .tc := ⟨.hbm, 263, rfl⟩
abbrev main_v139 : Ref sig .tc := ⟨.hbm, 264, rfl⟩
abbrev main_v140 : Ref sig .tc := ⟨.hbm, 265, rfl⟩
abbrev main_v141 : Ref sig .tc := ⟨.hbm, 266, rfl⟩
abbrev main_v142 : Ref sig .tc := ⟨.hbm, 267, rfl⟩
abbrev main_v143 : Ref sig .tc := ⟨.hbm, 268, rfl⟩
abbrev main_v144 : Ref sig .tc := ⟨.hbm, 269, rfl⟩
abbrev main_v145 : Ref sig .tc := ⟨.hbm, 270, rfl⟩
abbrev main_v146 : Ref sig .tc := ⟨.hbm, 271, rfl⟩
abbrev main_v147 : Ref sig .tc := ⟨.hbm, 272, rfl⟩
abbrev main_v148 : Ref sig .tc := ⟨.hbm, 273, rfl⟩
abbrev main_v149 : Ref sig .tc := ⟨.hbm, 274, rfl⟩
abbrev main_v150 : Ref sig .tc := ⟨.hbm, 275, rfl⟩
abbrev main_v151 : Ref sig .tc := ⟨.hbm, 276, rfl⟩
abbrev main_v152 : Ref sig .tc := ⟨.hbm, 277, rfl⟩
abbrev main_v153 : Ref sig .tc := ⟨.hbm, 278, rfl⟩
abbrev main_v154 : Ref sig .tc := ⟨.hbm, 279, rfl⟩
abbrev main_v155 : Ref sig .tc := ⟨.hbm, 280, rfl⟩
abbrev main_v156 : Ref sig .tc := ⟨.hbm, 281, rfl⟩
abbrev main_v157 : Ref sig .tc := ⟨.hbm, 282, rfl⟩
abbrev main_v158 : Ref sig .tc := ⟨.hbm, 283, rfl⟩
abbrev main_v159 : Ref sig .tc := ⟨.hbm, 284, rfl⟩
abbrev main_v160 : Ref sig .tc := ⟨.hbm, 285, rfl⟩
abbrev main_v161 : Ref sig .tc := ⟨.hbm, 286, rfl⟩
abbrev main_v162 : Ref sig .tc := ⟨.hbm, 287, rfl⟩
abbrev main_v163 : Ref sig .tc := ⟨.hbm, 288, rfl⟩
abbrev main_v164 : Ref sig .tc := ⟨.hbm, 289, rfl⟩
abbrev main_v165 : Ref sig .tc := ⟨.hbm, 290, rfl⟩
abbrev main_v166 : Ref sig .tc := ⟨.hbm, 291, rfl⟩
abbrev main_v167 : Ref sig .tc := ⟨.hbm, 292, rfl⟩
abbrev main_v168 : Ref sig .tc := ⟨.hbm, 293, rfl⟩
abbrev main_v169 : Ref sig .tc := ⟨.hbm, 294, rfl⟩
abbrev main_v170 : Ref sig .tc := ⟨.hbm, 295, rfl⟩
abbrev main_v171 : Ref sig .tc := ⟨.hbm, 296, rfl⟩
abbrev main_cst_28 : Ref sig .tc := ⟨.hbm, 297, rfl⟩
abbrev main_v172 : Ref sig .tc := ⟨.hbm, 298, rfl⟩
abbrev main_v173 : Ref sig .tc := ⟨.hbm, 299, rfl⟩
abbrev main_v174 : Ref sig .tc := ⟨.hbm, 300, rfl⟩
abbrev main_v175 : Ref sig .tc := ⟨.hbm, 301, rfl⟩
abbrev main_v176 : Ref sig .tc := ⟨.hbm, 302, rfl⟩
abbrev main_v177 : Ref sig .tc := ⟨.hbm, 303, rfl⟩
abbrev main_v178 : Ref sig .tc := ⟨.hbm, 304, rfl⟩
abbrev main_v179 : Ref sig .tc := ⟨.hbm, 305, rfl⟩
abbrev main_v180 : Ref sig .tc := ⟨.hbm, 306, rfl⟩
abbrev main_v181 : Ref sig .tc := ⟨.hbm, 307, rfl⟩
abbrev main_v182 : Ref sig .tc := ⟨.hbm, 308, rfl⟩
abbrev main_v183 : Ref sig .tc := ⟨.hbm, 309, rfl⟩
abbrev main_v184 : Ref sig .tc := ⟨.hbm, 310, rfl⟩
abbrev main_v185 : Ref sig .tc := ⟨.hbm, 311, rfl⟩
abbrev main_v186 : Ref sig .tc := ⟨.hbm, 312, rfl⟩
abbrev main_v187 : Ref sig .tc := ⟨.hbm, 313, rfl⟩
abbrev main_v188 : Ref sig .tc := ⟨.hbm, 314, rfl⟩
abbrev main_v189 : Ref sig .tc := ⟨.hbm, 315, rfl⟩
abbrev main_cst_29 : Ref sig .tc := ⟨.hbm, 316, rfl⟩
abbrev main_v190 : Ref sig .tc := ⟨.hbm, 317, rfl⟩
abbrev main_v191 : Ref sig .tc := ⟨.hbm, 318, rfl⟩
abbrev main_v192 : Ref sig .tc := ⟨.hbm, 319, rfl⟩
abbrev main_v193 : Ref sig .tc := ⟨.hbm, 320, rfl⟩
abbrev main_v194 : Ref sig .tc := ⟨.hbm, 321, rfl⟩
abbrev main_v195 : Ref sig .tc := ⟨.hbm, 322, rfl⟩
abbrev main_v196 : Ref sig .tc := ⟨.hbm, 323, rfl⟩
abbrev main_v197 : Ref sig .tc := ⟨.hbm, 324, rfl⟩
abbrev main_v198 : Ref sig .tc := ⟨.hbm, 325, rfl⟩
abbrev main_v199 : Ref sig .tc := ⟨.hbm, 326, rfl⟩
abbrev main_v200 : Ref sig .tc := ⟨.hbm, 327, rfl⟩
abbrev main_v201 : Ref sig .tc := ⟨.hbm, 328, rfl⟩
abbrev main_v202 : Ref sig .tc := ⟨.hbm, 329, rfl⟩
abbrev main_v203 : Ref sig .tc := ⟨.hbm, 330, rfl⟩
abbrev main_v204 : Ref sig .tc := ⟨.hbm, 331, rfl⟩
abbrev main_v205 : Ref sig .tc := ⟨.hbm, 332, rfl⟩
abbrev main_v206 : Ref sig .tc := ⟨.hbm, 333, rfl⟩
abbrev main_v207 : Ref sig .tc := ⟨.hbm, 334, rfl⟩
abbrev main_v208 : Ref sig .tc := ⟨.hbm, 335, rfl⟩
abbrev main_cst_30 : Ref sig .tc := ⟨.hbm, 336, rfl⟩
abbrev main_v209 : Ref sig .tc := ⟨.hbm, 337, rfl⟩
abbrev main_v210 : Ref sig .tc := ⟨.hbm, 338, rfl⟩
abbrev main_v211 : Ref sig .tc := ⟨.hbm, 339, rfl⟩
abbrev main_v212 : Ref sig .tc := ⟨.hbm, 340, rfl⟩
abbrev main_c_31 : Ref sig .tc := ⟨.hbm, 341, rfl⟩
abbrev main_v213 : Ref sig .tc := ⟨.hbm, 342, rfl⟩
abbrev main_v214 : Ref sig .tc := ⟨.hbm, 343, rfl⟩
abbrev main_c_32 : Ref sig .tc := ⟨.hbm, 344, rfl⟩
abbrev main_v215 : Ref sig .tc := ⟨.hbm, 345, rfl⟩
abbrev main_v216 : Ref sig .tc := ⟨.hbm, 346, rfl⟩
abbrev main_v217 : Ref sig .tc := ⟨.hbm, 347, rfl⟩
abbrev main_v218 : Ref sig .tc := ⟨.hbm, 348, rfl⟩
abbrev main_v219 : Ref sig .tc := ⟨.hbm, 349, rfl⟩
abbrev main_v220 : Ref sig .tc := ⟨.hbm, 350, rfl⟩
abbrev main_v221 : Ref sig .tc := ⟨.hbm, 351, rfl⟩
abbrev main_v222 : Ref sig .tc := ⟨.hbm, 352, rfl⟩
abbrev main_cst_33 : Ref sig .tc := ⟨.hbm, 353, rfl⟩
abbrev main_v223 : Ref sig .tc := ⟨.hbm, 354, rfl⟩
abbrev main_cst_34 : Ref sig .tc := ⟨.hbm, 355, rfl⟩
abbrev main_v224 : Ref sig .tc := ⟨.hbm, 356, rfl⟩
abbrev main_cst_35 : Ref sig .tc := ⟨.hbm, 357, rfl⟩
abbrev main_v225 : Ref sig .tc := ⟨.hbm, 358, rfl⟩
abbrev main_v226 : Ref sig .tc := ⟨.hbm, 359, rfl⟩
abbrev main_v227 : Ref sig .tc := ⟨.hbm, 360, rfl⟩

abbrev nD : Nat := 1
abbrev τ : Topo := Topo.v7x

variable {F : FTy → Type} [FloatOps F]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  shapeCasts_S32768x1_S32768 : S32768x1.ShapeCasts S32768
  reducesTo_S32768_S_d0 : S32768.ReducesTo [0] S_
  h_S_ : 0 < S_.numel
  concatenates_S32768x1_S32768x1_S32768x1_S32768x3_d1 : Shape.Concatenates [S32768x1, S32768x1, S32768x1] S32768x3 1
  bcast_S32768x3_S32768x1x3_0_2 : S32768x3.BroadcastsInDim S32768x1x3 (![0, 2] : Fin 2 → Fin S32768x1x3.rank)
  bcast_S8x3_S1x8x3_1_2 : S8x3.BroadcastsInDim S1x8x3 (![1, 2] : Fin 2 → Fin S1x8x3.rank)
  bcast_S32768x1x3_S32768x8x3_0_1_2 : S32768x1x3.BroadcastsInDim S32768x8x3 (![0, 1, 2] : Fin 3 → Fin S32768x8x3.rank)
  bcast_S1x8x3_S32768x8x3_0_1_2 : S1x8x3.BroadcastsInDim S32768x8x3 (![0, 1, 2] : Fin 3 → Fin S32768x8x3.rank)
  slices_S32768x8x3_S32768x8x1_0_0_0 : S32768x8x3.Slices ![0, 0, 0] S32768x8x1
  shapeCasts_S32768x8x1_S32768x8 : S32768x8x1.ShapeCasts S32768x8
  bcast_S_S32768x8 : S_.BroadcastsInDim S32768x8 (![] : Fin 0 → Fin S32768x8.rank)
  slices_S32768x8x3_S32768x8x1_0_0_1 : S32768x8x3.Slices ![0, 0, 1] S32768x8x1
  slices_S32768x8x3_S32768x8x1_0_0_2 : S32768x8x3.Slices ![0, 0, 2] S32768x8x1
  bcast_S32768x8_S32768x8x1_0_1 : S32768x8.BroadcastsInDim S32768x8x1 (![0, 1] : Fin 2 → Fin S32768x8x1.rank)
  shapeCasts_S32768x8x3_S262144x3 : S32768x8x3.ShapeCasts S262144x3
  bcast_S1x128_S262144x128_0_1 : S1x128.BroadcastsInDim S262144x128 (![0, 1] : Fin 2 → Fin S262144x128.rank)
  bcast_S1x1_S262144x1_0_1 : S1x1.BroadcastsInDim S262144x1 (![0, 1] : Fin 2 → Fin S262144x1.rank)
  shapeCasts_S262144x1_S32768x8 : S262144x1.ShapeCasts S32768x8
  slices_S32768x8_S32768x1_0_7 : S32768x8.Slices ![0, 7] S32768x1
  slices_S32768x8_S32768x1_0_0 : S32768x8.Slices ![0, 0] S32768x1
  slices_S32768x8_S32768x1_0_3 : S32768x8.Slices ![0, 3] S32768x1
  slices_S32768x8_S32768x1_0_4 : S32768x8.Slices ![0, 4] S32768x1
  slices_S32768x8_S32768x1_0_5 : S32768x8.Slices ![0, 5] S32768x1
  slices_S32768x8_S32768x1_0_2 : S32768x8.Slices ![0, 2] S32768x1
  gather_S2097152x3_S32768x1_S32768x3_1_0_n_n_0_1_13_wf : GatherDims.WF S2097152x3 S32768x1 S32768x3 [1] [0] [] [0] [] 1 ![1, 3]
  dot_S32768x3_S3x128_S32768x128_1_0_0_1_n_n_wf : DotDims.WF S32768x3 S3x128 S32768x128 [1] [0] [0] [1] [] []
  dot_S32768x128_S128x128_S32768x128_1_0_0_1_n_n_wf : DotDims.WF S32768x128 S128x128 S32768x128 [1] [0] [0] [1] [] []
  dot_S32768x128_S128x1_S32768x1_1_0_0_1_n_n_wf : DotDims.WF S32768x128 S128x1 S32768x1 [1] [0] [0] [1] [] []
  gather_S2097152x1_S32768x1_S32768x1_1_0_n_n_0_1_11_wf : GatherDims.WF S2097152x1 S32768x1 S32768x1 [1] [0] [] [0] [] 1 ![1, 1]
  gather_S2048383x3_S32768x8x1_S32768x8x3_2_0_n_n_0_2_13_wf : GatherDims.WF S2048383x3 S32768x8x1 S32768x8x3 [2] [0] [] [0] [] 2 ![1, 3]
  dot_S262144x3_S3x128_S262144x128_1_0_0_1_n_n_wf : DotDims.WF S262144x3 S3x128 S262144x128 [1] [0] [0] [1] [] []
  dot_S262144x128_S128x128_S262144x128_1_0_0_1_n_n_wf : DotDims.WF S262144x128 S128x128 S262144x128 [1] [0] [0] [1] [] []
  dot_S262144x128_S128x1_S262144x1_1_0_0_1_n_n_wf : DotDims.WF S262144x128 S128x1 S262144x1 [1] [0] [0] [1] [] []
  gather_S2097152x3_S32768x8x1_S32768x8x3_2_0_n_n_0_2_13_wf : GatherDims.WF S2097152x3 S32768x8x1 S32768x8x3 [2] [0] [] [0] [] 2 ![1, 3]
  gather_S2097152_S32768x1_S32768_n_0_n_n_0_1_1_wf : GatherDims.WF S2097152 S32768x1 S32768 [] [0] [] [0] [] 1 ![1]

variable [Facts₀]

def gather_S2097152x3_S32768x1_S32768x3_1_0_n_n_0_1_13 : GatherDims S2097152x3 S32768x1 S32768x3 where
  offsetDims := [1]
  collapsedSliceDims := [0]
  operandBatchingDims := []
  startIndicesBatchingDims := []
  startIndexMap := [0]
  indexVectorDim := 1
  sliceSizes := ![1, 3]
  wf := gather_S2097152x3_S32768x1_S32768x3_1_0_n_n_0_1_13_wf
def dot_S32768x3_S3x128_S32768x128_1_0_0_1_n_n : DotDims S32768x3 S3x128 S32768x128 where
  lhsContracting := [1]
  rhsContracting := [0]
  lhsNonContracting := [0]
  rhsNonContracting := [1]
  lhsBatch := []
  rhsBatch := []
  wf := dot_S32768x3_S3x128_S32768x128_1_0_0_1_n_n_wf
def dot_S32768x128_S128x128_S32768x128_1_0_0_1_n_n : DotDims S32768x128 S128x128 S32768x128 where
  lhsContracting := [1]
  rhsContracting := [0]
  lhsNonContracting := [0]
  rhsNonContracting := [1]
  lhsBatch := []
  rhsBatch := []
  wf := dot_S32768x128_S128x128_S32768x128_1_0_0_1_n_n_wf
def dot_S32768x128_S128x1_S32768x1_1_0_0_1_n_n : DotDims S32768x128 S128x1 S32768x1 where
  lhsContracting := [1]
  rhsContracting := [0]
  lhsNonContracting := [0]
  rhsNonContracting := [1]
  lhsBatch := []
  rhsBatch := []
  wf := dot_S32768x128_S128x1_S32768x1_1_0_0_1_n_n_wf
def gather_S2097152x1_S32768x1_S32768x1_1_0_n_n_0_1_11 : GatherDims S2097152x1 S32768x1 S32768x1 where
  offsetDims := [1]
  collapsedSliceDims := [0]
  operandBatchingDims := []
  startIndicesBatchingDims := []
  startIndexMap := [0]
  indexVectorDim := 1
  sliceSizes := ![1, 1]
  wf := gather_S2097152x1_S32768x1_S32768x1_1_0_n_n_0_1_11_wf
def gather_S2048383x3_S32768x8x1_S32768x8x3_2_0_n_n_0_2_13 : GatherDims S2048383x3 S32768x8x1 S32768x8x3 where
  offsetDims := [2]
  collapsedSliceDims := [0]
  operandBatchingDims := []
  startIndicesBatchingDims := []
  startIndexMap := [0]
  indexVectorDim := 2
  sliceSizes := ![1, 3]
  wf := gather_S2048383x3_S32768x8x1_S32768x8x3_2_0_n_n_0_2_13_wf
def dot_S262144x3_S3x128_S262144x128_1_0_0_1_n_n : DotDims S262144x3 S3x128 S262144x128 where
  lhsContracting := [1]
  rhsContracting := [0]
  lhsNonContracting := [0]
  rhsNonContracting := [1]
  lhsBatch := []
  rhsBatch := []
  wf := dot_S262144x3_S3x128_S262144x128_1_0_0_1_n_n_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def dot_S262144x128_S128x1_S262144x1_1_0_0_1_n_n : DotDims S262144x128 S128x1 S262144x1 where
  lhsContracting := [1]
  rhsContracting := [0]
  lhsNonContracting := [0]
  rhsNonContracting := [1]
  lhsBatch := []
  rhsBatch := []
  wf := dot_S262144x128_S128x1_S262144x1_1_0_0_1_n_n_wf
def gather_S2097152x3_S32768x8x1_S32768x8x3_2_0_n_n_0_2_13 : GatherDims S2097152x3 S32768x8x1 S32768x8x3 where
  offsetDims := [2]
  collapsedSliceDims := [0]
  operandBatchingDims := []
  startIndicesBatchingDims := []
  startIndexMap := [0]
  indexVectorDim := 2
  sliceSizes := ![1, 3]
  wf := gather_S2097152x3_S32768x8x1_S32768x8x3_2_0_n_n_0_2_13_wf
def gather_S2097152_S32768x1_S32768_n_0_n_n_0_1_1 : GatherDims S2097152 S32768x1 S32768 where
  offsetDims := []
  collapsedSliceDims := [0]
  operandBatchingDims := []
  startIndicesBatchingDims := []
  startIndexMap := [0]
  indexVectorDim := 1
  sliceSizes := ![1]
  wf := gather_S2097152_S32768x1_S32768_n_0_n_n_0_1_1_wf

class Facts : Prop extends Facts₀ where

variable [Facts]
-- ==== Proof.KEntry.lean ====
import proofs.«412532_j62079457296719_3_alg».proof.Proof.Gen.Kernel.Launch
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.Sem

variable {F : FTy → Type} [FloatOps F]

abbrev preOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12]

abbrev postOps : List (List (HloOp τ sig (Elt F))) := [hostOps1]

variable (m : (ℓ : Loc nD τ sig) → Buf (Elt F) ℓ)

abbrev V0 (c : Dev nD) : Valuation τ sig (Elt F) := StableHlo.after (List.flatten preOps) (fun b => m (c, b))
abbrev V (c : Dev nD) (b : Ref sig .tc) : Buf (Elt F) ((c : Thread nD τ).loc b) := V0 m c (Proc.devRef .tc b)

theorem preOps_sub : (preOps : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩

theorem preOps_fresh : (preOps : List (List (HloOp τ sig (Elt F)))).Forall fun ops => ops.Forall fun op => op.fresh = ∅ := by
  simp only [List.Forall]; repeat' constructor

end Cert.Kernel.Hand

end
-- ==== Proof.KBody.lean ====
import proofs.«412532_j62079457296719_3_alg».proof.Proof.KEntry
import proofs.«412532_j62079457296719_3_alg».proof.Proof.Gen.Kernel.Skeleton
import proofs.«412532_j62079457296719_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev r3x8704 : Rect S3x8704 := Rect.unit (s := S3x8704) ![0, 0] S3x8704.size inb_S3x8704_S3x8704_0_0
abbrev r128x3 : Rect S128x3 := Rect.unit (s := S128x3) ![0, 0] S128x3.size inb_S128x3_S128x3_0_0
abbrev r128x1 : Rect S128x1 := Rect.unit (s := S128x1) ![0, 0] S128x1.size inb_S128x1_S128x1_0_0
abbrev r128x128 : Rect S128x128 := Rect.unit (s := S128x128) ![0, 0] S128x128.size inb_S128x128_S128x128_0_0
abbrev r1x128 : Rect S1x128 := Rect.unit (s := S1x128) ![0, 0] S1x128.size inb_S1x128_S1x128_0_0
abbrev r1x1 : Rect S1x1 := Rect.unit (s := S1x1) ![0, 0] S1x1.size inb_S1x1_S1x1_0_0
abbrev r1x8704 : Rect S1x8704 := Rect.unit (s := S1x8704) ![0, 0] S1x8704.size inb_S1x8704_S1x8704_0_0

def out9 (x0 : Vec F S3x8704 .f32) (x1 : Vec F S128x3 .f32) (x2 : Vec F S128x1 .f32) (x3 : Vec F S128x128 .f32) (x4 : Vec F S128x1 .f32) (x5 : Vec F S128x128 .f32) (x6 : Vec F S128x1 .f32) (x7 : Vec F S1x128 .f32) (x8 : Vec F S1x1 .f32) : Vec F S1x8704 .f32 :=
  View.canon [⟨r1x8704, k0_pay1 (View.ld x0 r3x8704) (View.ld x1 r128x3) (View.ld x2 r128x1) (View.ld x3 r128x128) (View.ld x4 r128x1) (View.ld x5 r128x128) (View.ld x6 r128x1) (View.ld x7 r1x128) (View.ld x8 r1x1)⟩]

set_option maxHeartbeats 4000000 in
theorem sound_kernel (c : Dev nD) (E : Set ℕ) (i : grid0.Coords)
    (arg1 : Memref sig .tc .vmem S3x8704 .f32) (harg1 : arg1.IsWhole)
    (arg2 : Memref sig .tc .vmem S128x3 .f32) (harg2 : arg2.IsWhole)
    (arg3 : Memref sig .tc .vmem S128x1 .f32) (harg3 : arg3.IsWhole)
    (arg4 : Memref sig .tc .vmem S128x128 .f32) (harg4 : arg4.IsWhole)
    (arg5 : Memref sig .tc .vmem S128x1 .f32) (harg5 : arg5.IsWhole)
    (arg6 : Memref sig .tc .vmem S128x128 .f32) (harg6 : arg6.IsWhole)
    (arg7 : Memref sig .tc .vmem S128x1 .f32) (harg7 : arg7.IsWhole)
    (arg8 : Memref sig .tc .vmem S1x128 .f32) (harg8 : arg8.IsWhole)
    (arg9 : Memref sig .tc .vmem S1x1 .f32) (harg9 : arg9.IsWhole)
    (arg10 : Memref sig .tc .vmem S1x8704 .f32) (harg10 : arg10.IsWhole)
    (x0 : Vec F S3x8704 .f32) (x1 : Vec F S128x3 .f32) (x2 : Vec F S128x1 .f32) (x3 : Vec F S128x128 .f32) (x4 : Vec F S128x1 .f32) (x5 : Vec F S128x128 .f32) (x6 : Vec F S128x1 .f32) (x7 : Vec F S1x128 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out9 x0 x1 x2 x3 x4 x5 x6 x7 x8)) -∗ K ⟨⟩))
      ⊢ wp frame (wpE (defs₀ (F := F)) Variants.none c none) E
          (cc0__mlp_kernel i arg1 harg1 arg2 harg2 arg3 harg3 arg4 harg4 arg5 harg5 arg6 harg6 arg7 harg7 arg8 harg8 arg9 harg9 arg10 harg10) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (View.cover_of_tiled _ S1x8704.size (by rfl))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after9 (c : Dev nD) (t : Fin cfg0.N) :
    (dats m 0 c).after 9 t = out9 (iblk m c 0 t) (iblk m c 1 t) (iblk m c 2 t) (iblk m c 3 t) (iblk m c 4 t) (iblk m c 5 t) (iblk m c 6 t) (iblk m c 7 t) (iblk m c 8 t) := by dsimp only [dats]

-- The body reads its nine inputs and overwrites the output whole, so what it leaves depends only on the inputs' blocks.
set_option maxHeartbeats 4000000 in
theorem body_obligation (c : Dev nD) : BodyObligation (dats (F := F) m 0 c) (defs₀ (F := F)) Variants.none () Set.univ := fun t => by
  have hb : ∀ w, (cfg0.win w).isOut = false → ∀ d, (dats m 0 c).before w t d = (dats m 0 c).after w t := by
    intro w hw d
    fin_cases w <;> first
      | exact absurd hw (by decide)
      | rw [Dat.before_in_eq_fetched _ _ hw (fun _ => rfl) (fun _ _ _ => rfl) (fun _ => rfl)]; rfl
  rw [bigSep_W0, bigSep_W0, show (dats m 0 c).owesAt () t.succ = (dats m 0 c).owesAt () t.castSucc from rfl]
  simp (disch := exact rfl) only [hb]
  dsimp only [dats]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  iframe H0 H1 H2 H3 H4 H5 H6 H7 H8
  isplitl [H9]; · iexists _; iexact H9
  iintro ⟨H0, H1, H2, H3, H4, H5, H6, H7, H8, H9⟩
  iframe

end Cert.Kernel.Hand

end
-- ==== Proof.KAround.lean ====
import proofs.«412532_j62079457296719_3_alg».proof.Proof.KEntry
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

abbrev argRefs : List (Ref sig .tc) :=
  [main_arg0, main_arg1, main_arg2, main_arg3, main_arg4, main_arg5, main_arg6, main_arg7, main_arg8, main_arg9,
    main_arg10, main_arg11, main_arg12]

abbrev arrRefs : List (Ref sig .tc) := List.ofFn (Pipeline.arrRef spec0)

theorem argRefs_rest : ∀ b ∈ argRefs, b.isScoped = false ∧ ∀ w, (spec0 w).arr.view.ref ≠ b := by decide

abbrev WritesOutside (L : List (Ref sig .tc)) (op : HloOp τ sig (Elt F)) : Prop :=
  ∃ y : Ref sig .tc, op.writes = {Proc.devRef .tc y} ∧ y ∉ L

-- An operation that writes the single reference y, outside L, writes no b of L.
theorem flatten_keeps {L : List (Ref sig .tc)} {opss : List (List (HloOp τ sig (Elt F)))}
    (h : opss.Forall fun ops => ops.Forall (WritesOutside L)) {b : Ref sig .tc} (hb : b ∈ L) :
    ∀ op ∈ opss.flatten, Proc.devRef (τ := τ) .tc b ∉ op.writes := by
  intro op hop hw
  obtain ⟨ops, hops, hin⟩ := List.mem_flatten.mp hop
  obtain ⟨y, hy, hyL⟩ := List.forall_iff_forall_mem.mp (List.forall_iff_forall_mem.mp h ops hops) op hin
  rw [hy, Finset.mem_singleton] at hw
  exact hyL (Proc.devRef_injective _ hw ▸ hb)

-- Every host operation writes the buffer of the value it defines, which is neither an argument nor a windowed array.
theorem pre_writes : (preOps : List (List (HloOp τ sig (Elt F)))).Forall fun ops => ops.Forall (WritesOutside argRefs) := by
  simp only [List.Forall]; repeat' apply And.intro
  all_goals exact ⟨_, rfl, by decide⟩

theorem post_writes : (postOps : List (List (HloOp τ sig (Elt F)))).Forall fun ops => ops.Forall (WritesOutside (argRefs ++ arrRefs)) := by
  simp only [List.Forall]; repeat' apply And.intro
  all_goals exact ⟨_, rfl, by decide⟩

theorem V_of_arg (c : Dev nD) {b : Ref sig .tc} (hb : b ∈ argRefs) : V m c b = m ((c : Thread nD τ).loc b) :=
  StableHlo.after_of_forall_not_mem (b := Proc.devRef .tc b) _ _ (flatten_keeps pre_writes hb)

-- An argument is no windowed array and nothing after the region writes it, so the run's post there is what the region found.
theorem arg_end (dats : (p : Fin 1) → (c : Dev nD) → Pipeline.Dat τ (Elt F) Unit ℕ (UR sig nD τ) ℕ (cfgs p) c)
    {r : PUnit × MemSt nD τ sig (Elt F)}
    (h : Pipeline.FramePost cfgs dats 0 (Pipeline.afterTail₀ cfgs dats 0 (V0 m) [hostOps1]) r) (c : Dev nD)
    {b : Ref sig .tc} (hb : b ∈ argRefs) :
    r.2.mem ((c.tc : Thread nD τ).loc b) = m ((c.tc : Thread nD τ).loc b) := by
  rw [(h c).2 b (Pipeline.mem_restRefs_of b (argRefs_rest b hb).1 (argRefs_rest b hb).2)]
  unfold Pipeline.afterTail₀
  rw [StableHlo.after_of_forall_not_mem (b := Proc.devRef .tc b) _ _ (flatten_keeps post_writes (List.mem_append_left _ hb)),
    Pipeline.withArrays_of_ne _ c (V0 m c) _ b (argRefs_rest b hb).2]
  exact V_of_arg m c hb

theorem result_of (dats : (p : Fin 1) → (c : Dev nD) → Pipeline.Dat τ (Elt F) Unit ℕ (UR sig nD τ) ℕ (cfgs p) c)
    (r : PUnit × MemSt nD τ sig (Elt F))
    (h : Pipeline.FramePost cfgs dats 0 (Pipeline.afterTail₀ cfgs dats 0 (V0 m) [hostOps1]) r) (c : Dev nD) :
    r.2.mem ((c.tc : Thread nD τ).loc main_v180) = Pipeline.afterTail₀ cfgs dats 0 (V0 m) [hostOps1] c main_v180 :=
  (h c).2 main_v180 (Pipeline.mem_restRefs_of main_v180 (by decide) (by decide))

end Cert.Kernel.Hand

end
-- ==== Proof.KRun.lean ====
import proofs.«412532_j62079457296719_3_alg».proof.Proof.KBody
import proofs.«412532_j62079457296719_3_alg».proof.Proof.KAround

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

set_option backward.isDefEq.respectTransparency.types false in
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := postOps)
    (hsub := Pipeline.tailRefs_none spec0 launch0.win.arr_unscoped ▸ List.forall_mem_singleton.mpr fun op hop =>
      Pipeline.sub_ucRefs op (List.forall_iff_forall_mem.mp hostOps1_sub op hop))
    (hfresh := List.forall_mem_singleton.mpr (List.forall_iff_forall_mem.mp (by simp only [List.Forall]; repeat' constructor)))
    (hkeep := fun ops hops op hop w =>
      flatten_keeps post_writes (List.mem_append_right _ (List.mem_ofFn.mpr ⟨w, rfl⟩)) op (List.mem_flatten.mpr ⟨ops, hops, hop⟩))
    (hmain := Pipeline.hmain_around cfgs 0 defs₀ Variants.none m main preOps postOps preOps_sub preOps_fresh fun c => (main_chain c).trans rfl)
    (hA := A_eq m) (hΦ := fun _ _ => rfl)

end Cert.Kernel.Hand

end
-- ==== Proof.KIEntry.lean ====
import proofs.«412532_j62079457296719_3_alg».proof.Proof.Gen.KernelIdeal.Launch
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

abbrev preOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12]

abbrev postOps : List (List (HloOp τ sig (Elt F))) := [hostOps1]

variable (m : (ℓ : Loc nD τ sig) → Buf (Elt F) ℓ)

abbrev V0 (c : Dev nD) : Valuation τ sig (Elt F) := StableHlo.after (List.flatten preOps) (fun b => m (c, b))
abbrev V (c : Dev nD) (b : Ref sig .tc) : Buf (Elt F) ((c : Thread nD τ).loc b) := V0 m c (Proc.devRef .tc b)

theorem preOps_sub : (preOps : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩

theorem preOps_fresh : (preOps : List (List (HloOp τ sig (Elt F)))).Forall fun ops => ops.Forall fun op => op.fresh = ∅ := by
  simp only [List.Forall]; repeat' constructor

end Cert.KernelIdeal.Hand

end
-- ==== Proof.KIBody.lean ====
import proofs.«412532_j62079457296719_3_alg».proof.Proof.KIEntry
import proofs.«412532_j62079457296719_3_alg».proof.Proof.Gen.KernelIdeal.Skeleton
import proofs.«412532_j62079457296719_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev r3x8704 : Rect S3x8704 := Rect.unit (s := S3x8704) ![0, 0] S3x8704.size inb_S3x8704_S3x8704_0_0
abbrev r128x3 : Rect S128x3 := Rect.unit (s := S128x3) ![0, 0] S128x3.size inb_S128x3_S128x3_0_0
abbrev r128x1 : Rect S128x1 := Rect.unit (s := S128x1) ![0, 0] S128x1.size inb_S128x1_S128x1_0_0
abbrev r128x128 : Rect S128x128 := Rect.unit (s := S128x128) ![0, 0] S128x128.size inb_S128x128_S128x128_0_0
abbrev r1x128 : Rect S1x128 := Rect.unit (s := S1x128) ![0, 0] S1x128.size inb_S1x128_S1x128_0_0
abbrev r1x1 : Rect S1x1 := Rect.unit (s := S1x1) ![0, 0] S1x1.size inb_S1x1_S1x1_0_0
abbrev r1x8704 : Rect S1x8704 := Rect.unit (s := S1x8704) ![0, 0] S1x8704.size inb_S1x8704_S1x8704_0_0

def out9 (x0 : Vec F S3x8704 .f32) (x1 : Vec F S128x3 .f32) (x2 : Vec F S128x1 .f32) (x3 : Vec F S128x128 .f32) (x4 : Vec F S128x1 .f32) (x5 : Vec F S128x128 .f32) (x6 : Vec F S128x1 .f32) (x7 : Vec F S1x128 .f32) (x8 : Vec F S1x1 .f32) : Vec F S1x8704 .f32 :=
  View.canon [⟨r1x8704, k0_pay1 (View.ld x0 r3x8704) (View.ld x1 r128x3) (View.ld x2 r128x1) (View.ld x3 r128x128) (View.ld x4 r128x1) (View.ld x5 r128x128) (View.ld x6 r128x1) (View.ld x7 r1x128) (View.ld x8 r1x1)⟩]

set_option maxHeartbeats 4000000 in
theorem sound_kernel (c : Dev nD) (E : Set ℕ) (i : grid0.Coords)
    (arg1 : Memref sig .tc .vmem S3x8704 .f32) (harg1 : arg1.IsWhole)
    (arg2 : Memref sig .tc .vmem S128x3 .f32) (harg2 : arg2.IsWhole)
    (arg3 : Memref sig .tc .vmem S128x1 .f32) (harg3 : arg3.IsWhole)
    (arg4 : Memref sig .tc .vmem S128x128 .f32) (harg4 : arg4.IsWhole)
    (arg5 : Memref sig .tc .vmem S128x1 .f32) (harg5 : arg5.IsWhole)
    (arg6 : Memref sig .tc .vmem S128x128 .f32) (harg6 : arg6.IsWhole)
    (arg7 : Memref sig .tc .vmem S128x1 .f32) (harg7 : arg7.IsWhole)
    (arg8 : Memref sig .tc .vmem S1x128 .f32) (harg8 : arg8.IsWhole)
    (arg9 : Memref sig .tc .vmem S1x1 .f32) (harg9 : arg9.IsWhole)
    (arg10 : Memref sig .tc .vmem S1x8704 .f32) (harg10 : arg10.IsWhole)
    (x0 : Vec F S3x8704 .f32) (x1 : Vec F S128x3 .f32) (x2 : Vec F S128x1 .f32) (x3 : Vec F S128x128 .f32) (x4 : Vec F S128x1 .f32) (x5 : Vec F S128x128 .f32) (x6 : Vec F S128x1 .f32) (x7 : Vec F S1x128 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out9 x0 x1 x2 x3 x4 x5 x6 x7 x8)) -∗ K ⟨⟩))
      ⊢ wp frame (wpE (defs₀ (F := F)) Variants.none c none) E
          (cc0__mlp_kernel i arg1 harg1 arg2 harg2 arg3 harg3 arg4 harg4 arg5 harg5 arg6 harg6 arg7 harg7 arg8 harg8 arg9 harg9 arg10 harg10) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (View.cover_of_tiled _ S1x8704.size (by rfl))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after9 (c : Dev nD) (t : Fin cfg0.N) :
    (dats m 0 c).after 9 t = out9 (iblk m c 0 t) (iblk m c 1 t) (iblk m c 2 t) (iblk m c 3 t) (iblk m c 4 t) (iblk m c 5 t) (iblk m c 6 t) (iblk m c 7 t) (iblk m c 8 t) := by dsimp only [dats]

-- The body reads its nine inputs and overwrites the output whole, so what it leaves depends only on the inputs' blocks.
set_option maxHeartbeats 4000000 in
theorem body_obligation (c : Dev nD) : BodyObligation (dats (F := F) m 0 c) (defs₀ (F := F)) Variants.none () Set.univ := fun t => by
  have hb : ∀ w, (cfg0.win w).isOut = false → ∀ d, (dats m 0 c).before w t d = (dats m 0 c).after w t := by
    intro w hw d
    fin_cases w <;> first
      | exact absurd hw (by decide)
      | rw [Dat.before_in_eq_fetched _ _ hw (fun _ => rfl) (fun _ _ _ => rfl) (fun _ => rfl)]; rfl
  rw [bigSep_W0, bigSep_W0, show (dats m 0 c).owesAt () t.succ = (dats m 0 c).owesAt () t.castSucc from rfl]
  simp (disch := exact rfl) only [hb]
  dsimp only [dats]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  iframe H0 H1 H2 H3 H4 H5 H6 H7 H8
  isplitl [H9]; · iexists _; iexact H9
  iintro ⟨H0, H1, H2, H3, H4, H5, H6, H7, H8, H9⟩
  iframe

end Cert.KernelIdeal.Hand

end
-- ==== Proof.KIAround.lean ====
import proofs.«412532_j62079457296719_3_alg».proof.Proof.KIEntry
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

abbrev argRefs : List (Ref sig .tc) :=
  [main_arg0, main_arg1, main_arg2, main_arg3, main_arg4, main_arg5, main_arg6, main_arg7, main_arg8, main_arg9,
    main_arg10, main_arg11, main_arg12]

abbrev arrRefs : List (Ref sig .tc) := List.ofFn (Pipeline.arrRef spec0)

theorem argRefs_rest : ∀ b ∈ argRefs, b.isScoped = false ∧ ∀ w, (spec0 w).arr.view.ref ≠ b := by decide

abbrev WritesOutside (L : List (Ref sig .tc)) (op : HloOp τ sig (Elt F)) : Prop :=
  ∃ y : Ref sig .tc, op.writes = {Proc.devRef .tc y} ∧ y ∉ L

-- An operation that writes the single reference y, outside L, writes no b of L.
theorem flatten_keeps {L : List (Ref sig .tc)} {opss : List (List (HloOp τ sig (Elt F)))}
    (h : opss.Forall fun ops => ops.Forall (WritesOutside L)) {b : Ref sig .tc} (hb : b ∈ L) :
    ∀ op ∈ opss.flatten, Proc.devRef (τ := τ) .tc b ∉ op.writes := by
  intro op hop hw
  obtain ⟨ops, hops, hin⟩ := List.mem_flatten.mp hop
  obtain ⟨y, hy, hyL⟩ := List.forall_iff_forall_mem.mp (List.forall_iff_forall_mem.mp h ops hops) op hin
  rw [hy, Finset.mem_singleton] at hw
  exact hyL (Proc.devRef_injective _ hw ▸ hb)

-- Every host operation writes the buffer of the value it defines, which is neither an argument nor a windowed array.
theorem pre_writes : (preOps : List (List (HloOp τ sig (Elt F)))).Forall fun ops => ops.Forall (WritesOutside argRefs) := by
  simp only [List.Forall]; repeat' apply And.intro
  all_goals exact ⟨_, rfl, by decide⟩

theorem post_writes : (postOps : List (List (HloOp τ sig (Elt F)))).Forall fun ops => ops.Forall (WritesOutside (argRefs ++ arrRefs)) := by
  simp only [List.Forall]; repeat' apply And.intro
  all_goals exact ⟨_, rfl, by decide⟩

theorem V_of_arg (c : Dev nD) {b : Ref sig .tc} (hb : b ∈ argRefs) : V m c b = m ((c : Thread nD τ).loc b) :=
  StableHlo.after_of_forall_not_mem (b := Proc.devRef .tc b) _ _ (flatten_keeps pre_writes hb)

-- An argument is no windowed array and nothing after the region writes it, so the run's post there is what the region found.
theorem arg_end (dats : (p : Fin 1) → (c : Dev nD) → Pipeline.Dat τ (Elt F) Unit ℕ (UR sig nD τ) ℕ (cfgs p) c)
    {r : PUnit × MemSt nD τ sig (Elt F)}
    (h : Pipeline.FramePost cfgs dats 0 (Pipeline.afterTail₀ cfgs dats 0 (V0 m) [hostOps1]) r) (c : Dev nD)
    {b : Ref sig .tc} (hb : b ∈ argRefs) :
    r.2.mem ((c.tc : Thread nD τ).loc b) = m ((c.tc : Thread nD τ).loc b) := by
  rw [(h c).2 b (Pipeline.mem_restRefs_of b (argRefs_rest b hb).1 (argRefs_rest b hb).2)]
  unfold Pipeline.afterTail₀
  rw [StableHlo.after_of_forall_not_mem (b := Proc.devRef .tc b) _ _ (flatten_keeps post_writes (List.mem_append_left _ hb)),
    Pipeline.withArrays_of_ne _ c (V0 m c) _ b (argRefs_rest b hb).2]
  exact V_of_arg m c hb

theorem result_of (dats : (p : Fin 1) → (c : Dev nD) → Pipeline.Dat τ (Elt F) Unit ℕ (UR sig nD τ) ℕ (cfgs p) c)
    (r : PUnit × MemSt nD τ sig (Elt F))
    (h : Pipeline.FramePost cfgs dats 0 (Pipeline.afterTail₀ cfgs dats 0 (V0 m) [hostOps1]) r) (c : Dev nD) :
    r.2.mem ((c.tc : Thread nD τ).loc main_v180) = Pipeline.afterTail₀ cfgs dats 0 (V0 m) [hostOps1] c main_v180 :=
  (h c).2 main_v180 (Pipeline.mem_restRefs_of main_v180 (by decide) (by decide))

end Cert.KernelIdeal.Hand

end
-- ==== Proof.KIRun.lean ====
import proofs.«412532_j62079457296719_3_alg».proof.Proof.KIBody
import proofs.«412532_j62079457296719_3_alg».proof.Proof.KIAround

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

set_option backward.isDefEq.respectTransparency.types false in
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := postOps)
    (hsub := Pipeline.tailRefs_none spec0 launch0.win.arr_unscoped ▸ List.forall_mem_singleton.mpr fun op hop =>
      Pipeline.sub_ucRefs op (List.forall_iff_forall_mem.mp hostOps1_sub op hop))
    (hfresh := List.forall_mem_singleton.mpr (List.forall_iff_forall_mem.mp (by simp only [List.Forall]; repeat' constructor)))
    (hkeep := fun ops hops op hop w =>
      flatten_keeps post_writes (List.mem_append_right _ (List.mem_ofFn.mpr ⟨w, rfl⟩)) op (List.mem_flatten.mpr ⟨ops, hops, hop⟩))
    (hmain := Pipeline.hmain_around cfgs 0 defs₀ Variants.none m main preOps postOps preOps_sub preOps_fresh fun c => (main_chain c).trans rfl)
    (hA := A_eq m) (hΦ := fun _ _ => rfl)

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx
open scoped BigOperators

def clampRow (N : Nat) (hN : 0 < N) (w : BitVec 32) : Fin N := ⟨min w.toInt.toNat (N - 1), by omega⟩

def layer {K : Nat} (W : FVec Ideal ⟨2, ![K, 128]⟩ .f32) (b : FVec Ideal ⟨1, ![128]⟩ .f32) (x : Fin K → EReal) : Fin 128 → EReal :=
  fun j => Ideal.tanh ((∑ k : Fin K, x k * W (ix2 k j)) + b (ix1 j))

def mlp (W1 : FVec Ideal ⟨2, ![3, 128]⟩ .f32) (b1 : FVec Ideal ⟨1, ![128]⟩ .f32)
    (W2 : FVec Ideal ⟨2, ![128, 128]⟩ .f32) (b2 : FVec Ideal ⟨1, ![128]⟩ .f32)
    (W3 : FVec Ideal ⟨2, ![128, 128]⟩ .f32) (b3 : FVec Ideal ⟨1, ![128]⟩ .f32)
    (W4 : FVec Ideal ⟨2, ![128, 1]⟩ .f32) (b4 : FVec Ideal ⟨1, ![1]⟩ .f32) (x : Fin 3 → EReal) : EReal :=
  (∑ k : Fin 128, layer W3 b3 (layer W2 b2 (layer W1 b1 x)) k * W4 (ix2 k (0 : Fin 1))) + b4 (ix1 (0 : Fin 1))

def layerT {K : Nat} (Wt : FVec Ideal ⟨2, ![128, K]⟩ .f32) (bc : FVec Ideal ⟨2, ![128, 1]⟩ .f32) (x : Fin K → EReal) : Fin 128 → EReal :=
  fun j => Ideal.tanh ((∑ k : Fin K, Wt (ix2 j k) * x k) + bc (ix2 j (0 : Fin 1)))

def mlpT (w1t : FVec Ideal ⟨2, ![128, 3]⟩ .f32) (b1c : FVec Ideal ⟨2, ![128, 1]⟩ .f32)
    (w2t : FVec Ideal ⟨2, ![128, 128]⟩ .f32) (b2c : FVec Ideal ⟨2, ![128, 1]⟩ .f32)
    (w3t : FVec Ideal ⟨2, ![128, 128]⟩ .f32) (b3c : FVec Ideal ⟨2, ![128, 1]⟩ .f32)
    (w4t : FVec Ideal ⟨2, ![1, 128]⟩ .f32) (b4c : FVec Ideal ⟨2, ![1, 1]⟩ .f32) (x : Fin 3 → EReal) : EReal :=
  (∑ k : Fin 128, w4t (ix2 (0 : Fin 1) k) * layerT w3t b3c (layerT w2t b2c (layerT w1t b1c x)) k) + b4c (ix2 (0 : Fin 1) (0 : Fin 1))

theorem layerT_eq_layer {K : Nat} (Wt : FVec Ideal ⟨2, ![128, K]⟩ .f32) (bc : FVec Ideal ⟨2, ![128, 1]⟩ .f32)
    (W : FVec Ideal ⟨2, ![K, 128]⟩ .f32) (b : FVec Ideal ⟨1, ![128]⟩ .f32)
    (hW : ∀ (j : Fin 128) (k : Fin K), Wt (ix2 j k) = W (ix2 k j)) (hb : ∀ j : Fin 128, bc (ix2 j (0 : Fin 1)) = b (ix1 j))
    (x : Fin K → EReal) : layerT Wt bc x = layer W b x := by
  funext j
  unfold layerT layer
  rw [hb j]
  congr 2
  exact Finset.sum_congr rfl fun k _ => by rw [hW j k, mul_comm]

theorem mlpT_eq_mlp
    (w1t : FVec Ideal ⟨2, ![128, 3]⟩ .f32) (b1c : FVec Ideal ⟨2, ![128, 1]⟩ .f32)
    (w2t : FVec Ideal ⟨2, ![128, 128]⟩ .f32) (b2c : FVec Ideal ⟨2, ![128, 1]⟩ .f32)
    (w3t : FVec Ideal ⟨2, ![128, 128]⟩ .f32) (b3c : FVec Ideal ⟨2, ![128, 1]⟩ .f32)
    (w4t : FVec Ideal ⟨2, ![1, 128]⟩ .f32) (b4c : FVec Ideal ⟨2, ![1, 1]⟩ .f32)
    (W1 : FVec Ideal ⟨2, ![3, 128]⟩ .f32) (b1 : FVec Ideal ⟨1, ![128]⟩ .f32)
    (W2 : FVec Ideal ⟨2, ![128, 128]⟩ .f32) (b2 : FVec Ideal ⟨1, ![128]⟩ .f32)
    (W3 : FVec Ideal ⟨2, ![128, 128]⟩ .f32) (b3 : FVec Ideal ⟨1, ![128]⟩ .f32)
    (W4 : FVec Ideal ⟨2, ![128, 1]⟩ .f32) (b4 : FVec Ideal ⟨1, ![1]⟩ .f32)
    (h1 : ∀ (j : Fin 128) (k : Fin 3), w1t (ix2 j k) = W1 (ix2 k j)) (hb1 : ∀ j : Fin 128, b1c (ix2 j (0 : Fin 1)) = b1 (ix1 j))
    (h2 : ∀ (j : Fin 128) (k : Fin 128), w2t (ix2 j k) = W2 (ix2 k j)) (hb2 : ∀ j : Fin 128, b2c (ix2 j (0 : Fin 1)) = b2 (ix1 j))
    (h3 : ∀ (j : Fin 128) (k : Fin 128), w3t (ix2 j k) = W3 (ix2 k j)) (hb3 : ∀ j : Fin 128, b3c (ix2 j (0 : Fin 1)) = b3 (ix1 j))
    (h4 : ∀ k : Fin 128, w4t (ix2 (0 : Fin 1) k) = W4 (ix2 k (0 : Fin 1))) (hb4 : b4c (ix2 (0 : Fin 1) (0 : Fin 1)) = b4 (ix1 (0 : Fin 1)))
    (x : Fin 3 → EReal) :
    mlpT w1t b1c w2t b2c w3t b3c w4t b4c x = mlp W1 b1 W2 b2 W3 b3 W4 b4 x := by
  unfold mlpT mlp
  rw [layerT_eq_layer w1t b1c W1 b1 h1 hb1, layerT_eq_layer w2t b2c W2 b2 h2 hb2, layerT_eq_layer w3t b3c W3 b3 h3 hb3, hb4]
  congr 1
  exact Finset.sum_congr rfl fun k _ => by rw [h4 k, mul_comm]

end Cert.Spec

end
-- ==== Proof.LibPlainDot.lean ====
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx
open scoped BigOperators

variable {A K B : Nat}

theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl

theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

theorem matmul_zero_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

theorem dotGeneral_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ .f32) (rhs : FVec Ideal ⟨2, ![K, B]⟩ .f32)
    (p : Fin A) (q : Fin B) :
    FloatOps.dotGeneral d prec sched lhs rhs (ix2 p q) = ∑ k : Fin K, lhs (ix2 p k) * rhs (ix2 k q) := by
  rw [eq_plain d hlc hrc hln hrn hlb hrb, Ideal.dotGeneral_apply]
  exact plain_sum lhs rhs p q

end Cert.LibPlainDot

end
-- ==== Proof.LibColumn.lean ====
import Idealize.ShloMosaic.Lib.ValueIdx
import Idealize.ShloMosaic.Lib.Pipeline.Value

namespace Cert.LibColumn

open Idealize.ShloMosaic Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.KIPayload.lean ====
import proofs.«412532_j62079457296719_3_alg».proof.Proof.Gen.KernelIdeal.Skeleton
import proofs.«412532_j62079457296719_3_alg».proof.Proof.Spec
import proofs.«412532_j62079457296719_3_alg».proof.Proof.LibPlainDot
import proofs.«412532_j62079457296719_3_alg».proof.Proof.LibColumn
import Idealize.ShloMosaic.PureOps.Ideal
import Idealize.ShloMosaic.PureOps.Ideal.Laws
import Idealize.ShloMosaic.Lib.ValueIdx
import Idealize.ShloMosaic.Lib.Pipeline.Value

noncomputable section

namespace Cert.KernelIdeal.Hand

open Cert.KernelIdeal Cert.KernelIdeal.Gen Idealize.ShloMosaic Idealize.ShloMosaic.ValueIdx
open scoped BigOperators

theorem hidden_col {K : Nat} (d : DotDims ⟨2, ![128, K]⟩ ⟨2, ![K, 8704]⟩ ⟨2, ![128, 8704]⟩)
    (hlc : d.lhsContracting = [1]) (hrc : d.rhsContracting = [0]) (hln : d.lhsNonContracting = [0])
    (hrn : d.rhsNonContracting = [1]) (hlb : d.lhsBatch = []) (hrb : d.rhsBatch = [])
    (hb : (⟨2, ![128, 1]⟩ : Shape).Broadcasts ⟨2, ![128, 8704]⟩)
    (Wt : FVec Ideal ⟨2, ![128, K]⟩ .f32) (bc : FVec Ideal ⟨2, ![128, 1]⟩ .f32) (x : FVec Ideal ⟨2, ![K, 8704]⟩ .f32)
    (q : Fin 8704) :
    (fun j : Fin 128 => tanh (addf (matmul d (some .fp32) Wt x (constant ⟨2, ![128, 8704]⟩ .f32 0x00000000#32))
        (broadcastTo ⟨2, ![128, 8704]⟩ bc hb)) (ix2 j q))
      = Cert.Spec.layerT Wt bc (fun k => x (ix2 k q)) := by
  funext j
  show Ideal.tanh (FloatOps.matmul d (some .fp32) Wt x (constant ⟨2, ![128, 8704]⟩ .f32 0x00000000#32) (ix2 j q)
      + broadcastTo ⟨2, ![128, 8704]⟩ bc hb (ix2 j q)) = _
  rw [Cert.LibPlainDot.matmul_zero_apply d hlc hrc hln hrn hlb hrb, Cert.LibColumn.broadcastTo_a1_ab_apply]
  rfl

theorem pay_apply (x0 : Vec Ideal S3x8704 .f32) (w1t : Vec Ideal S128x3 .f32) (b1c : Vec Ideal S128x1 .f32)
    (w2t : Vec Ideal S128x128 .f32) (b2c : Vec Ideal S128x1 .f32) (w3t : Vec Ideal S128x128 .f32) (b3c : Vec Ideal S128x1 .f32)
    (w4t : Vec Ideal S1x128 .f32) (b4c : Vec Ideal S1x1 .f32) (q : Fin 8704) :
    k0_pay1 (F := Ideal) x0 w1t b1c w2t b2c w3t b3c w4t b4c (ix2 (0 : Fin 1) q)
      = Cert.Spec.mlpT w1t b1c w2t b2c w3t b3c w4t b4c (fun k => x0 (ix2 k q)) := by
  unfold k0_pay1
  simp only [shapeCast_self]
  show FloatOps.matmul (F := Ideal) _ (some .fp32) w4t _ _ (ix2 (0 : Fin 1) q) + broadcastTo _ b4c _ (ix2 (0 : Fin 1) q) = _
  rw [Cert.LibPlainDot.matmul_zero_apply _ rfl rfl rfl rfl rfl rfl, Cert.LibColumn.broadcastTo_a1_ab_apply]
  unfold Cert.Spec.mlpT
  rw [← hidden_col dot_S128x3_S3x8704_S128x8704_1_0_0_1_n_n rfl rfl rfl rfl rfl rfl broadcasts_S128x1_S128x8704 w1t b1c x0 q,
    ← hidden_col dot_S128x128_S128x8704_S128x8704_1_0_0_1_n_n rfl rfl rfl rfl rfl rfl broadcasts_S128x1_S128x8704 w2t b2c _ q,
    ← hidden_col dot_S128x128_S128x8704_S128x8704_1_0_0_1_n_n rfl rfl rfl rfl rfl rfl broadcasts_S128x1_S128x8704 w3t b3c _ q]

end Cert.KernelIdeal.Hand

end
-- ==== Proof.KIArray.lean ====
import proofs.«412532_j62079457296719_3_alg».proof.Proof.KIBody
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

theorem arr_zero_offsets : (![0, 0] : Fin 2 → Nat) = fun _ => 0 := funext fun a => by fin_cases a <;> rfl

theorem arr_index_facts : ∀ t : Fin cfg0.N,
    (win0_0.index t (0 : Fin 2) = 0 ∧ win0_0.index t (1 : Fin 2) = t.val)
    ∧ (win0_9.index t (0 : Fin 2) = 0 ∧ win0_9.index t (1 : Fin 2) = t.val)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

def arr9_lane (c : Dev nD) (t : Fin cfg0.N) (y : Fin 8704) : EReal :=
  k0_pay1 (F := Ideal) (iblk m c 0 t) (iblk m c 1 t) (iblk m c 2 t) (iblk m c 3 t) (iblk m c 4 t) (iblk m c 5 t) (iblk m c 6 t) (iblk m c 7 t) (iblk m c 8 t) (ix2 (0 : Fin 1) y)

theorem arr_col_block_lt (i : S1x557056.Idx) : (i 1).val / 8704 < cfg0.N := by
  have h1 : (i 1).val < 557056 := idx2_lt1 i
  rw [show cfg0.N = 64 from N_0]; omega

def arr9_whole (c : Dev nD) : S1x557056.Idx → EReal := fun i =>
  arr9_lane m c ⟨(i 1).val / 8704, arr_col_block_lt i⟩ ⟨(i 1).val % 8704, Nat.mod_lt _ (by decide)⟩

theorem arr9_whole_at (c : Dev nD) (t : Fin cfg0.N) (y : Fin 8704) (i : S1x557056.Idx)
    (hi : (i 1).val = 8704 * t.val + y.val) : arr9_whole m c i = arr9_lane m c t y := by
  have hy : y.val < 8704 := y.isLt
  unfold arr9_whole
  congr 1 <;> apply Fin.ext
  · show (i 1).val / 8704 = t.val; omega
  · show (i 1).val % 8704 = y.val; omega

theorem arr9_flushed_eq (c : Dev nD) (t : Fin cfg0.N) :
    (dats m 0 c).flushed 9 t = ((cfg0.win 9).blk t).view.read (Elt Ideal) (arr9_whole m c) := by
  show (cfg0.win 9).cut (grid0.coords t) ((dats m 0 c).after 9 t) = _
  rw [after9]
  unfold out9
  rw [View.canon_unit_zero arr_zero_offsets]
  simp only [View.ld_unit_zero (S := S3x8704) arr_zero_offsets, View.ld_unit_zero (S := S128x3) arr_zero_offsets,
    View.ld_unit_zero (S := S128x1) arr_zero_offsets, View.ld_unit_zero (S := S128x128) arr_zero_offsets,
    View.ld_unit_zero (S := S1x128) arr_zero_offsets, View.ld_unit_zero (S := S1x1) arr_zero_offsets]
  obtain ⟨-, ⟨e0, e1⟩, -⟩ := arr_index_facts t
  funext j
  have hj : (j 1).val < 8704 := (j 1).isLt
  have hj0 : (j 0).val < 1 := (j 0).isLt
  show k0_pay1 (F := Ideal) (iblk m c 0 t) (iblk m c 1 t) (iblk m c 2 t) (iblk m c 3 t) (iblk m c 4 t) (iblk m c 5 t) (iblk m c 6 t) (iblk m c 7 t) (iblk m c 8 t) ((cfg0.win 9).xinj (grid0.coords t) j)
    = arr9_whole m c (((cfg0.win 9).blk t).view.emb j)
  refine Eq.trans ?_ (arr9_whole_at m c t ⟨(j 1).val, hj⟩ _ ?_).symm
  · unfold arr9_lane
    congr 1
    funext a
    match a with
    | ⟨0, _⟩ => exact Fin.ext (by show (j 0).val = 0; omega)
    | ⟨1, _⟩ => rfl
  · show win0_9.index t (1 : Fin 2) * 8704 + 1 * (j 1).val = 8704 * t.val + (j 1).val
    rw [e1]; omega

theorem arr9_mem_blk (t : Fin cfg0.N) (i : S1x557056.Idx) :
    i ∈ ((cfg0.win 9).blk t).view.set ↔ ∀ a : Fin 2, win0_9.index t a * S1x8704.size a ≤ (i a).val ∧ (i a).val < win0_9.index t a * S1x8704.size a + S1x8704.size a := by
  show i ∈ ((View.whole main_v91).slice (win0_9.rect t)).set ↔ _
  rw [View.set_slice_whole, Rect.mem_set_unit]
  exact Iff.rfl

theorem arr9_cover (i : S1x557056.Idx) :
    ∃ t : Fin cfg0.N, (cfg0.win 9).flush t = true ∧ i ∈ ((cfg0.win 9).blk t).view.set := by
  have h0 : (i 0).val < 1 := idx2_lt0 i
  have h1 : (i 1).val < 557056 := idx2_lt1 i
  obtain ⟨-, ⟨e0, e1⟩, -⟩ := arr_index_facts ⟨(i 1).val / 8704, arr_col_block_lt i⟩
  refine ⟨⟨(i 1).val / 8704, arr_col_block_lt i⟩, flush0_9 _, ?_⟩
  rw [arr9_mem_blk]
  intro a
  match a with
  | ⟨0, _⟩ =>
    show win0_9.index ⟨(i 1).val / 8704, arr_col_block_lt i⟩ (0 : Fin 2) * 1 ≤ (i 0).val ∧ (i 0).val < win0_9.index ⟨(i 1).val / 8704, arr_col_block_lt i⟩ (0 : Fin 2) * 1 + 1
    rw [e0]; omega
  | ⟨1, _⟩ =>
    show win0_9.index ⟨(i 1).val / 8704, arr_col_block_lt i⟩ (1 : Fin 2) * 8704 ≤ (i 1).val ∧ (i 1).val < win0_9.index ⟨(i 1).val / 8704, arr_col_block_lt i⟩ (1 : Fin 2) * 8704 + 8704
    rw [e1]
    show (i 1).val / 8704 * 8704 ≤ (i 1).val ∧ (i 1).val < (i 1).val / 8704 * 8704 + 8704
    omega

theorem arr9_eq (c : Dev nD) : (dats m 0 c).arrAt 9 cfg0.N = arr9_whole m c :=
  (dats m 0 c).arrAt_eq_of_cover 9 (arr9_whole m c) (fun t _ => arr9_flushed_eq m c t) arr9_cover

theorem arr_col_lt (t : Fin cfg0.N) (y : Fin 8704) : 8704 * t.val + y.val < 557056 := by
  have ht : t.val < 64 := t.isLt.trans_eq N_0
  have hy : y.val < 8704 := y.isLt
  omega

theorem arr9_apply (c : Dev nD) (t : Fin cfg0.N) (y : Fin 8704) :
    ((dats m 0 c).arrAt 9 cfg0.N : S1x557056.Idx → EReal) (ix2 (0 : Fin 1) ⟨8704 * t.val + y.val, arr_col_lt t y⟩)
      = k0_pay1 (F := Ideal) (iblk m c 0 t) (iblk m c 1 t) (iblk m c 2 t) (iblk m c 3 t) (iblk m c 4 t) (iblk m c 5 t) (iblk m c 6 t) (iblk m c 7 t) (iblk m c 8 t) (ix2 (0 : Fin 1) y) := by
  rw [arr9_eq]
  exact arr9_whole_at m c t y _ rfl

-- Two rank-2 indices with equal coordinates read the same element.
theorem read_ix2 {n0 n1 : Nat} (f : (⟨2, ![n0, n1]⟩ : Shape).Idx → EReal) (i : (⟨2, ![n0, n1]⟩ : Shape).Idx) (p : Fin n0) (q : Fin n1)
    (h0 : (i 0).val = p.val) (h1 : (i 1).val = q.val) : f i = f (ix2 p q) :=
  congrArg f (funext fun a => Fin.ext (match a with | ⟨0, _⟩ => h0 | ⟨1, _⟩ => h1))

theorem zero_off {x n p : Nat} (h : x = 0) : x * n + 1 * p = p := by subst h; omega

theorem iblk0_apply (c : Dev nD) (t : Fin cfg0.N) (k : Fin 3) (y : Fin 8704) :
    (iblk m c 0 t : Vec Ideal S3x8704 .f32) (ix2 k y)
      = (V m c main_v82 : S3x557056.Idx → EReal) (ix2 k ⟨8704 * t.val + y.val, arr_col_lt t y⟩) :=
  have ⟨e0, e1⟩ := (arr_index_facts t).1
  read_ix2 (V m c main_v82 : S3x557056.Idx → EReal) (((cfg0.win 0).blk t).view.emb (ix2 k y)) k _ (zero_off e0)
    (by show win0_0.index t (1 : Fin 2) * 8704 + 1 * y.val = 8704 * t.val + y.val; rw [e1]; omega)

theorem iblk1_eq (c : Dev nD) (t : Fin cfg0.N) (p : Fin 128) (q : Fin 3) :
    (iblk m c 1 t : Vec Ideal S128x3 .f32) (ix2 p q) = (V m c main_v83 : S128x3.Idx → EReal) (ix2 p q) :=
  have ⟨e0, e1⟩ := (arr_index_facts t).2.2.1
  read_ix2 (V m c main_v83 : S128x3.Idx → EReal) (((cfg0.win 1).blk t).view.emb (ix2 p q)) p q (zero_off e0) (zero_off e1)

theorem iblk2_eq (c : Dev nD) (t : Fin cfg0.N) (p : Fin 128) (q : Fin 1) :
    (iblk m c 2 t : Vec Ideal S128x1 .f32) (ix2 p q) = (V m c main_v87 : S128x1.Idx → EReal) (ix2 p q) :=
  have ⟨e0, e1⟩ := (arr_index_facts t).2.2.2.1
  read_ix2 (V m c main_v87 : S128x1.Idx → EReal) (((cfg0.win 2).blk t).view.emb (ix2 p q)) p q (zero_off e0) (zero_off e1)

theorem iblk3_eq (c : Dev nD) (t : Fin cfg0.N) (p : Fin 128) (q : Fin 128) :
    (iblk m c 3 t : Vec Ideal S128x128 .f32) (ix2 p q) = (V m c main_v84 : S128x128.Idx → EReal) (ix2 p q) :=
  have ⟨e0, e1⟩ := (arr_index_facts t).2.2.2.2.1
  read_ix2 (V m c main_v84 : S128x128.Idx → EReal) (((cfg0.win 3).blk t).view.emb (ix2 p q)) p q (zero_off e0) (zero_off e1)

theorem iblk4_eq (c : Dev nD) (t : Fin cfg0.N) (p : Fin 128) (q : Fin 1) :
    (iblk m c 4 t : Vec Ideal S128x1 .f32) (ix2 p q) = (V m c main_v88 : S128x1.Idx → EReal) (ix2 p q) :=
  have ⟨e0, e1⟩ := (arr_index_facts t).2.2.2.2.2.1
  read_ix2 (V m c main_v88 : S128x1.Idx → EReal) (((cfg0.win 4).blk t).view.emb (ix2 p q)) p q (zero_off e0) (zero_off e1)

theorem iblk5_eq (c : Dev nD) (t : Fin cfg0.N) (p : Fin 128) (q : Fin 128) :
    (iblk m c 5 t : Vec Ideal S128x128 .f32) (ix2 p q) = (V m c main_v85 : S128x128.Idx → EReal) (ix2 p q) :=
  have ⟨e0, e1⟩ := (arr_index_facts t).2.2.2.2.2.2.1
  read_ix2 (V m c main_v85 : S128x128.Idx → EReal) (((cfg0.win 5).blk t).view.emb (ix2 p q)) p q (zero_off e0) (zero_off e1)

theorem iblk6_eq (c : Dev nD) (t : Fin cfg0.N) (p : Fin 128) (q : Fin 1) :
    (iblk m c 6 t : Vec Ideal S128x1 .f32) (ix2 p q) = (V m c main_v89 : S128x1.Idx → EReal) (ix2 p q) :=
  have ⟨e0, e1⟩ := (arr_index_facts t).2.2.2.2.2.2.2.1
  read_ix2 (V m c main_v89 : S128x1.Idx → EReal) (((cfg0.win 6).blk t).view.emb (ix2 p q)) p q (zero_off e0) (zero_off e1)

theorem iblk7_eq (c : Dev nD) (t : Fin cfg0.N) (p : Fin 1) (q : Fin 128) :
    (iblk m c 7 t : Vec Ideal S1x128 .f32) (ix2 p q) = (V m c main_v86 : S1x128.Idx → EReal) (ix2 p q) :=
  have ⟨e0, e1⟩ := (arr_index_facts t).2.2.2.2.2.2.2.2.1
  read_ix2 (V m c main_v86 : S1x128.Idx → EReal) (((cfg0.win 7).blk t).view.emb (ix2 p q)) p q (zero_off e0) (zero_off e1)

theorem iblk8_eq (c : Dev nD) (t : Fin cfg0.N) (p : Fin 1) (q : Fin 1) :
    (iblk m c 8 t : Vec Ideal S1x1 .f32) (ix2 p q) = (V m c main_v90 : S1x1.Idx → EReal) (ix2 p q) :=
  have ⟨e0, e1⟩ := (arr_index_facts t).2.2.2.2.2.2.2.2.2
  read_ix2 (V m c main_v90 : S1x1.Idx → EReal) (((cfg0.win 8).blk t).view.emb (ix2 p q)) p q (zero_off e0) (zero_off e1)

end Cert.KernelIdeal.Hand

end
-- ==== Proof.LibSeg.lean ====
import Idealize.ShloMosaic.Lib.StableHlo.Run

namespace Cert.LibSeg

open Idealize.ShloMosaic Idealize.ShloMosaic.StableHlo

variable {τ : Topo} {sig : RefSig} {Val : EltTy → Type}

abbrev WritesIn (ops : List (HloOp τ sig Val)) (W : List (Ref sig .tc)) : Prop :=
  ops.Forall fun op => op.writes ⊆ (W.map (Proc.devRef (τ := τ) .tc)).toFinset

theorem after_append' (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

theorem after_cut (n : Nat) (l : List (HloOp τ sig Val)) (V : Valuation τ sig Val) :
    after l V = after (l.drop n) (after (l.take n) V) := by
  rw [← after_append', List.take_append_drop]

theorem writesIn_of_map {ops : List (HloOp τ sig Val)} {W : List (Ref sig .tc)}
    (h : ops.map (·.writes) = W.map fun y => ({Proc.devRef (τ := τ) .tc y} : Finset (DevRef τ sig))) : WritesIn ops W :=
  List.forall_iff_forall_mem.mpr fun op hop => by
    have hm : op.writes ∈ ops.map (·.writes) := List.mem_map_of_mem hop
    rw [h] at hm
    obtain ⟨y, hy, he⟩ := List.mem_map.mp hm
    exact he ▸ Finset.singleton_subset_iff.mpr (List.mem_toFinset.mpr (List.mem_map_of_mem hy))

theorem writes_append {W₁ W₂ : List (Ref sig .tc)} {l₁ l₂ : List (HloOp τ sig Val)}
    (h₁ : WritesIn l₁ W₁) (h₂ : WritesIn l₂ W₂) : WritesIn (l₁ ++ l₂) (W₁ ++ W₂) := by
  rw [WritesIn, List.forall_iff_forall_mem] at *
  intro op hop b hb
  rw [List.map_append, List.toFinset_append, Finset.mem_union]
  exact (List.mem_append.mp hop).imp (h₁ op · hb) (h₂ op · hb)

theorem writes_flatten {segs : List (List (HloOp τ sig Val))} {wrs : List (List (Ref sig .tc))}
    (h : List.Forall₂ WritesIn segs wrs) : WritesIn segs.flatten wrs.flatten := by
  induction h with
  | nil => trivial
  | cons h _ ih => exact writes_append h ih

theorem flatten_cut {α : Type} (segs : List (List α)) (k : Nat) :
    segs.flatten = (segs.take k).flatten ++ (segs.getD k [] ++ (segs.drop (k + 1)).flatten) := by
  induction segs generalizing k with
  | nil => simp
  | cons s ss ih =>
    cases k with
    | zero => simp
    | succ k => simp only [List.take_succ_cons, List.flatten_cons, List.getD_cons_succ, List.drop_succ_cons, List.append_assoc, ← ih k]

theorem flatten_take_succ {α : Type} (segs : List (List α)) (k : Nat) :
    (segs.take (k + 1)).flatten = (segs.take k).flatten ++ segs.getD k [] := by
  induction segs generalizing k with
  | nil => simp
  | cons a l ih =>
    cases k with
    | zero => simp
    | succ k => simp only [List.take_succ_cons, List.flatten_cons, List.getD_cons_succ, List.append_assoc, ih k]

theorem after_take_succ (segs : List (List (HloOp τ sig Val))) (s : List (HloOp τ sig Val)) (k : Nat)
    (V : Valuation τ sig Val) (hs : segs.getD k [] = s := by rfl) :
    after (segs.take (k + 1)).flatten V = after s (after (segs.take k).flatten V) := by
  rw [flatten_take_succ, hs, after_append']

/-- In a line cut into stretches, a reference that no stretch after the k-th writes holds at the end what the
    k-th stretch left there. -/
theorem at_seg {segs : List (List (HloOp τ sig Val))} {wrs : List (List (Ref sig .tc))}
    (h : List.Forall₂ WritesIn segs wrs) (s : List (HloOp τ sig Val)) (k : Nat) (V : Valuation τ sig Val) {z : Ref sig .tc}
    (hz : z ∉ (wrs.drop (k + 1)).flatten) (hs : segs.getD k [] = s := by rfl) :
    after segs.flatten V (Proc.devRef .tc z) = after s (after (segs.take k).flatten V) (Proc.devRef .tc z) := by
  rw [flatten_cut segs k, hs, after_append', after_append',
    after_of_writes_sub _ _ (writes_flatten (List.forall₂_drop (k + 1) h)) hz]

/-- And a reference that no stretch from the k-th on writes holds before the k-th what it holds at the end. -/
theorem at_pre {segs : List (List (HloOp τ sig Val))} {wrs : List (List (Ref sig .tc))}
    (h : List.Forall₂ WritesIn segs wrs) (k : Nat) (V : Valuation τ sig Val) {x : Ref sig .tc}
    (hx : x ∉ (wrs.drop k).flatten) :
    after (segs.take k).flatten V (Proc.devRef .tc x) = after segs.flatten V (Proc.devRef .tc x) := by
  conv_rhs => rw [← List.take_append_drop k segs, List.flatten_append, after_append',
    after_of_writes_sub _ _ (writes_flatten (List.forall₂_drop k h)) hx]

end Cert.LibSeg
-- ==== Proof.LibRowsTake.lean ====
import Idealize.ShloMosaic.PureOps.ShapeOps
import Idealize.ShloMosaic.Lib.ValueIdx

namespace Cert.LibRowsTake

open Idealize.ShloMosaic Idealize.ShloMosaic.ValueIdx

variable {α : Type}

abbrev rowsTakeDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

theorem gather_rowsTake_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (j : Fin C) :
    Host.gather (rowsTakeDims N R C wf) x idx (ix2 r j)
      = x (ix2 ⟨min (idx (ix2 r (0 : Fin 1))).toInt.toNat (N - 1), by omega⟩ j) := by
  have n10 : (1 : Fin 2) ∉ ([0] : List (Fin 2)) := by decide
  unfold Host.gather
  congr 1
  funext a
  refine Fin.ext ?_
  match a with
  | ⟨0, _⟩ =>

    show (rowsTakeDims N R C wf).start (ix2 r j) idx 0 + (rowsTakeDims N R C wf).batchCoord (ix2 r j) 0
      + (rowsTakeDims N R C wf).offCoord (ix2 r j) 0 = min (idx (ix2 r (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsTakeDims N R C wf).startIndexMap from List.mem_singleton.mpr rfl)]
    have hsi : (rowsTakeDims N R C wf).siIdx (ix2 r j) ⟨List.idxOf (0 : Fin 2) (rowsTakeDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>

    show (rowsTakeDims N R C wf).start (ix2 r j) idx 1 + (rowsTakeDims N R C wf).batchCoord (ix2 r j) 1
      + (rowsTakeDims N R C wf).offCoord (ix2 r j) 1 = j.val
    unfold GatherDims.start
    rw [dif_neg (show (1 : Fin 2) ∉ (rowsTakeDims N R C wf).startIndexMap from n10),
      GatherDims.batchCoord_eq_zero _ _ _ List.not_mem_nil]
    simp only [Nat.zero_add, Nat.add_zero]
    unfold GatherDims.offCoord
    rw [dif_pos ((GatherDims.mem_sKept _ _).mpr ⟨n10, List.not_mem_nil⟩)]
    rfl

end Cert.LibRowsTake
-- ==== Proof.KIEntryVals.lean ====
import proofs.«412532_j62079457296719_3_alg».proof.Proof.KIEntry
import proofs.«412532_j62079457296719_3_alg».proof.Proof.KIAround
import proofs.«412532_j62079457296719_3_alg».proof.Proof.LibSeg
import proofs.«412532_j62079457296719_3_alg».proof.Proof.LibRowsTake
import proofs.«412532_j62079457296719_3_alg».proof.Proof.LibColumn
import proofs.«412532_j62079457296719_3_alg».proof.Proof.Spec
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.Spec

abbrev cat3 {α : Type} (x1 : S32768x3.Idx → α) (x2 x3 : S262144x3.Idx → α) : S557056x3.Idx → α :=
  concatenate S557056x3 0 [⟨S32768x3, x1⟩, ⟨S262144x3, x2⟩, ⟨S262144x3, x3⟩] concatenates_S32768x3_S262144x3_S262144x3_S557056x3_d0

section Stretch

variable (W : Valuation τ sig (Elt Ideal))

theorem ev_tail10 (VA : Valuation τ sig (Elt Ideal)) :
    StableHlo.after (List.drop 23 hostOps0_12) VA (Proc.devRef .tc main_v81)
        = cat3 (VA (Proc.devRef .tc main_v79)) (VA (Proc.devRef .tc main_v78)) (VA (Proc.devRef .tc main_v80))
      ∧ StableHlo.after (List.drop 23 hostOps0_12) VA (Proc.devRef .tc main_v79) = VA (Proc.devRef .tc main_v79)
      ∧ StableHlo.after (List.drop 23 hostOps0_12) VA (Proc.devRef .tc main_v78) = VA (Proc.devRef .tc main_v78)
      ∧ StableHlo.after (List.drop 23 hostOps0_12) VA (Proc.devRef .tc main_v80) = VA (Proc.devRef .tc main_v80) := by
  unfold hostOps0_12
  simp only [List.drop_succ_cons, List.drop_zero]
  refine ⟨?_, ?_, ?_, ?_⟩ <;>
  simp (disch := decide) only [StableHlo.after_cons, StableHlo.after_nil, Matrix.cons_val,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne']

theorem ev_s_v81 : StableHlo.after hostOps0_12 W (Proc.devRef .tc main_v81)
    = cat3 (StableHlo.after hostOps0_12 W (Proc.devRef .tc main_v79)) (StableHlo.after hostOps0_12 W (Proc.devRef .tc main_v78)) (StableHlo.after hostOps0_12 W (Proc.devRef .tc main_v80)) := by
  obtain ⟨h81, h79, h78, h80⟩ := ev_tail10 (StableHlo.after (List.take 23 hostOps0_12) W)
  have hs := Cert.LibSeg.after_cut 23 hostOps0_12 W
  exact ((congrFun hs _).trans h81).trans
    (congr (congr (congrArg cat3 ((congrFun hs _).trans h79).symm) ((congrFun hs _).trans h78).symm) ((congrFun hs _).trans h80).symm)

end Stretch

section Entry

variable (m : (ℓ : Loc nD τ sig) → Buf (Elt Ideal) ℓ) (c : Dev nD)

abbrev ev_pre12 : List (List (HloOp τ sig (Elt Ideal))) :=
  [hostOps0, hostOps0_1, hostOps0_2, hostOps0_3, hostOps0_4, hostOps0_5, hostOps0_6, hostOps0_7, hostOps0_8, hostOps0_9, hostOps0_10, hostOps0_11]

theorem ev_preOps_split : List.flatten (preOps (F := Ideal)) = List.flatten ev_pre12 ++ hostOps0_12 := by
  simp only [List.flatten_cons, List.flatten_nil, List.append_nil, List.append_assoc]

def ev_Wp : Valuation τ sig (Elt Ideal) := StableHlo.after (List.flatten ev_pre12) (StableHlo.launchContents m c)

theorem ev_V_last (b : Ref sig .tc) : V m c b = StableHlo.after hostOps0_12 (ev_Wp m c) (Proc.devRef .tc b) := by
  unfold ev_Wp
  rw [← Cert.LibSeg.after_append', ← ev_preOps_split]

theorem ev_V_v70 : V m c main_v70 = Host.gather gather_S2097152x3_S294912x1_S294912x3_1_0_n_n_0_1_13 (V m c main_arg0)
      (broadcastInDim S294912x1 ![0] bcast_S294912_S294912x1_0 (V m c main_v68)) := by
  rw [ev_V_last m c main_v70, ev_V_last m c main_arg0, ev_V_last m c main_v68]
  unfold hostOps0_12
  after_results_simp

theorem ev_V_v78 : V m c main_v78 = Host.gather gather_S2048383x3_S262144x1_S262144x3_1_0_n_n_0_1_13 (V m c main_arg2)
      (broadcastInDim S262144x1 ![0] bcast_S262144_S262144x1_0 (V m c main_v76)) := by
  rw [ev_V_last m c main_v78, ev_V_last m c main_arg2, ev_V_last m c main_v76]
  unfold hostOps0_12
  after_results_simp

theorem ev_V_v79 : V m c main_v79 = extractStridedSlice S32768x3 ![0, 0] (V m c main_v70) slices_S294912x3_S32768x3_0_0 := by
  rw [ev_V_last m c main_v79, ev_V_last m c main_v70]
  unfold hostOps0_12
  after_results_simp

theorem ev_V_v80 : V m c main_v80 = extractStridedSlice S262144x3 ![32768, 0] (V m c main_v70) slices_S294912x3_S262144x3_32768_0 := by
  rw [ev_V_last m c main_v80, ev_V_last m c main_v70]
  unfold hostOps0_12
  after_results_simp

theorem ev_V_v82 : V m c main_v82 = transpose S3x557056 [1, 0] (V m c main_v81) transposes_S557056x3_S3x557056_1_0 := by
  rw [ev_V_last m c main_v82, ev_V_last m c main_v81]
  unfold hostOps0_12
  after_results_simp

theorem ev_V_v81 : V m c main_v81
    = cat3 (V m c main_v79) (V m c main_v78) (V m c main_v80) :=
  (ev_V_last m c main_v81).trans ((ev_s_v81 _).trans
    (congr (congr (congrArg cat3 (ev_V_last m c main_v79).symm) (ev_V_last m c main_v78).symm) (ev_V_last m c main_v80).symm))

theorem v83_apply (j : Fin 128) (k : Fin 3) :
    V m c main_v83 (ix2 j k) = m ((c.tc : Thread nD τ).loc main_arg4) (ix2 k j) := by
  rw [← V_of_arg m c (b := main_arg4) (by decide), ev_V_last m c main_v83, ev_V_last m c main_arg4]
  unfold hostOps0_12
  after_results_simp
  exact transpose_ix2_apply _ _ j k

theorem v84_apply (j k : Fin 128) :
    V m c main_v84 (ix2 j k) = m ((c.tc : Thread nD τ).loc main_arg6) (ix2 k j) := by
  rw [← V_of_arg m c (b := main_arg6) (by decide), ev_V_last m c main_v84, ev_V_last m c main_arg6]
  unfold hostOps0_12
  after_results_simp
  exact transpose_ix2_apply _ _ j k

theorem v85_apply (j k : Fin 128) :
    V m c main_v85 (ix2 j k) = m ((c.tc : Thread nD τ).loc main_arg8) (ix2 k j) := by
  rw [← V_of_arg m c (b := main_arg8) (by decide), ev_V_last m c main_v85, ev_V_last m c main_arg8]
  unfold hostOps0_12
  after_results_simp
  exact transpose_ix2_apply _ _ j k

theorem v86_apply (k : Fin 128) :
    V m c main_v86 (ix2 (0 : Fin 1) k) = m ((c.tc : Thread nD τ).loc main_arg10) (ix2 k (0 : Fin 1)) := by
  rw [← V_of_arg m c (b := main_arg10) (by decide), ev_V_last m c main_v86, ev_V_last m c main_arg10]
  unfold hostOps0_12
  after_results_simp
  exact transpose_ix2_apply _ _ (0 : Fin 1) k

theorem v87_apply (j : Fin 128) :
    V m c main_v87 (ix2 j (0 : Fin 1)) = m ((c.tc : Thread nD τ).loc main_arg5) (ix1 j) := by
  rw [← V_of_arg m c (b := main_arg5) (by decide), ev_V_last m c main_v87, ev_V_last m c main_arg5]
  unfold hostOps0_12
  after_results_simp
  exact Cert.LibColumn.shapeCast_a_a1_apply _ _ j (0 : Fin 1)

theorem v88_apply (j : Fin 128) :
    V m c main_v88 (ix2 j (0 : Fin 1)) = m ((c.tc : Thread nD τ).loc main_arg7) (ix1 j) := by
  rw [← V_of_arg m c (b := main_arg7) (by decide), ev_V_last m c main_v88, ev_V_last m c main_arg7]
  unfold hostOps0_12
  after_results_simp
  exact Cert.LibColumn.shapeCast_a_a1_apply _ _ j (0 : Fin 1)

theorem v89_apply (j : Fin 128) :
    V m c main_v89 (ix2 j (0 : Fin 1)) = m ((c.tc : Thread nD τ).loc main_arg9) (ix1 j) := by
  rw [← V_of_arg m c (b := main_arg9) (by decide), ev_V_last m c main_v89, ev_V_last m c main_arg9]
  unfold hostOps0_12
  after_results_simp
  exact Cert.LibColumn.shapeCast_a_a1_apply _ _ j (0 : Fin 1)

theorem v90_apply :
    V m c main_v90 (ix2 (0 : Fin 1) (0 : Fin 1)) = m ((c.tc : Thread nD τ).loc main_arg11) (ix1 (0 : Fin 1)) := by
  rw [← V_of_arg m c (b := main_arg11) (by decide), ev_V_last m c main_v90, ev_V_last m c main_arg11]
  unfold hostOps0_12
  after_results_simp
  exact Cert.LibColumn.shapeCast_a_a1_apply _ _ (0 : Fin 1) (0 : Fin 1)

theorem ev_gd_v70 : gather_S2097152x3_S294912x1_S294912x3_1_0_n_n_0_1_13
    = Cert.LibRowsTake.rowsTakeDims 2097152 294912 3 Facts₀.gather_S2097152x3_S294912x1_S294912x3_1_0_n_n_0_1_13_wf := rfl

theorem v70_apply (r : Fin 294912) (k : Fin 3) :
    V m c main_v70 (ix2 r k)
      = m ((c.tc : Thread nD τ).loc main_arg0) (ix2 (clampRow 2097152 (by decide) (V m c main_v68 (ix1 r))) k) := by
  have hb : broadcastInDim S294912x1 ![0] bcast_S294912_S294912x1_0 (V m c main_v68) (ix2 r (0 : Fin 1)) = V m c main_v68 (ix1 r) :=
    broadcastInDim_apply _ _ _ _ (ix1 r) (fun a => match a with | ⟨0, _⟩ => rfl)
  rw [ev_V_v70 m c, ev_gd_v70]
  refine (Cert.LibRowsTake.gather_rowsTake_apply (by decide) _ _ _ r k).trans ?_
  refine (congrFun (V_of_arg m c (by decide)) _).trans ?_
  exact congrArg (fun q : Fin 2097152 => m ((c.tc : Thread nD τ).loc main_arg0) (ix2 q k))
    (Fin.ext (congrArg (fun w : BitVec 32 => min w.toInt.toNat (2097152 - 1)) hb))

theorem ev_gd_v78 : gather_S2048383x3_S262144x1_S262144x3_1_0_n_n_0_1_13
    = Cert.LibRowsTake.rowsTakeDims 2048383 262144 3 Facts₀.gather_S2048383x3_S262144x1_S262144x3_1_0_n_n_0_1_13_wf := rfl

theorem v78_apply (r : Fin 262144) (k : Fin 3) :
    V m c main_v78 (ix2 r k)
      = m ((c.tc : Thread nD τ).loc main_arg2) (ix2 (clampRow 2048383 (by decide) (V m c main_v76 (ix1 r))) k) := by
  have hb : broadcastInDim S262144x1 ![0] bcast_S262144_S262144x1_0 (V m c main_v76) (ix2 r (0 : Fin 1)) = V m c main_v76 (ix1 r) :=
    broadcastInDim_apply _ _ _ _ (ix1 r) (fun a => match a with | ⟨0, _⟩ => rfl)
  rw [ev_V_v78 m c, ev_gd_v78]
  refine (Cert.LibRowsTake.gather_rowsTake_apply (by decide) _ _ _ r k).trans ?_
  refine (congrFun (V_of_arg m c (by decide)) _).trans ?_
  exact congrArg (fun q : Fin 2048383 => m ((c.tc : Thread nD τ).loc main_arg2) (ix2 q k))
    (Fin.ext (congrArg (fun w : BitVec 32 => min w.toInt.toNat (2048383 - 1)) hb))

theorem ev_rows_before_1 : (([S32768x3] : List Shape).map fun s : Shape => if h : s.rank = S557056x3.rank then s.size ((0 : Fin S557056x3.rank).cast h.symm) else 0).sum = 32768 := by decide
theorem ev_rows_before_2 : (([S32768x3, S262144x3] : List Shape).map fun s : Shape => if h : s.rank = S557056x3.rank then s.size ((0 : Fin S557056x3.rank).cast h.symm) else 0).sum = 294912 := by decide

section Pieces

variable {α : Type} (X1 : S32768x3.Idx → α) (X2 X3 : S262144x3.Idx → α) (n : Fin 557056) (k : Fin 3)

theorem ev_cat_lo (i : Fin 32768) (hi : 0 + i.val = n.val) : cat3 X1 X2 X3 (ix2 n k) = X1 (ix2 i k) :=
  concatenate_apply_piece (0 : Fin S557056x3.rank) _ _ (ix2 n k) 0 (by show (0 : Nat) < 3; omega) S32768x3 X1 rfl rfl 0 rfl (ix2 i k)
    (fun b hb => match b, hb with
      | ⟨0, _⟩, hb => absurd rfl hb
      | ⟨1, _⟩, _ => rfl) hi

theorem ev_cat_mid (i : Fin 262144) (hi : 32768 + i.val = n.val) : cat3 X1 X2 X3 (ix2 n k) = X2 (ix2 i k) :=
  concatenate_apply_piece (0 : Fin S557056x3.rank) _ _ (ix2 n k) 1 (by show (1 : Nat) < 3; omega) S262144x3 X2 rfl rfl 32768 (by exact ev_rows_before_1) (ix2 i k)
    (fun b hb => match b, hb with
      | ⟨0, _⟩, hb => absurd rfl hb
      | ⟨1, _⟩, _ => rfl) hi

theorem ev_cat_hi (i : Fin 262144) (hi : 294912 + i.val = n.val) : cat3 X1 X2 X3 (ix2 n k) = X3 (ix2 i k) :=
  concatenate_apply_piece (0 : Fin S557056x3.rank) _ _ (ix2 n k) 2 (by show (2 : Nat) < 3; omega) S262144x3 X3 rfl rfl 294912 (by exact ev_rows_before_2) (ix2 i k)
    (fun b hb => match b, hb with
      | ⟨0, _⟩, hb => absurd rfl hb
      | ⟨1, _⟩, _ => rfl) hi

end Pieces

theorem ev_v82_read (n : Fin 557056) (k : Fin 3) : V m c main_v82 (ix2 k n) = V m c main_v81 (ix2 n k) := by
  rw [ev_V_v82 m c]
  exact transpose_ix2_apply _ _ k n

theorem ev_v82_lo (n : Fin 557056) (k : Fin 3) (a : Nat) (ha : a < 32768) (hb : a < 294912) (h1 : 0 + a = n.val) :
    V m c main_v82 (ix2 k n) = V m c main_v70 (ix2 ⟨a, hb⟩ k) := by
  rw [ev_v82_read m c, ev_V_v81 m c]
  refine (ev_cat_lo _ _ _ n k ⟨a, ha⟩ h1).trans ?_
  rw [ev_V_v79 m c]
  exact slice2_axis0_apply 0 _ _ (⟨a, ha⟩ : Fin 32768) k ⟨a, hb⟩ (Nat.zero_add a).symm

theorem ev_v82_mid (n : Fin 557056) (k : Fin 3) (a : Nat) (ha : a < 262144) (h1 : 32768 + a = n.val) :
    V m c main_v82 (ix2 k n) = V m c main_v78 (ix2 ⟨a, ha⟩ k) := by
  rw [ev_v82_read m c, ev_V_v81 m c]
  exact ev_cat_mid _ _ _ n k ⟨a, ha⟩ h1

theorem ev_v82_hi (n : Fin 557056) (k : Fin 3) (a b : Nat) (ha : a < 262144) (hb : b < 294912) (h1 : 294912 + a = n.val)
    (h2 : b = 32768 + a) : V m c main_v82 (ix2 k n) = V m c main_v70 (ix2 ⟨b, hb⟩ k) := by
  rw [ev_v82_read m c, ev_V_v81 m c]
  refine (ev_cat_hi _ _ _ n k ⟨a, ha⟩ h1).trans ?_
  rw [ev_V_v80 m c]
  exact slice2_axis0_apply 32768 _ _ (⟨a, ha⟩ : Fin 262144) k ⟨b, hb⟩ h2

theorem v82_lo (n : Fin 557056) (hn : n.val < 32768) (k : Fin 3) :
    V m c main_v82 (ix2 k n) = V m c main_v70 (ix2 ⟨n.val, by omega⟩ k) :=
  ev_v82_lo m c n k n.val hn (by omega) (Nat.zero_add _)

theorem v82_mid (n : Fin 557056) (h1 : 32768 ≤ n.val) (h2 : n.val < 294912) (k : Fin 3) :
    V m c main_v82 (ix2 k n) = V m c main_v78 (ix2 ⟨n.val - 32768, by omega⟩ k) :=
  ev_v82_mid m c n k (n.val - 32768) (by omega) (by omega)

theorem v82_hi (n : Fin 557056) (h : 294912 ≤ n.val) (k : Fin 3) :
    V m c main_v82 (ix2 k n) = V m c main_v70 (ix2 ⟨n.val - 262144, by omega⟩ k) := by
  have hn := n.isLt
  exact ev_v82_hi m c n k (n.val - 294912) (n.val - 262144) (by omega) (by omega) (by omega) (by omega)

end Entry

end Cert.KernelIdeal.Hand

end
-- ==== Proof.KITail.lean ====
import proofs.«412532_j62079457296719_3_alg».proof.Proof.KIBody
import Idealize.ShloMosaic.Lib.Pipeline.FrameSuffix
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

def predK (out : FVec Ideal S1x557056 .f32) : FVec Ideal S32768 .f32 :=
  extractStridedSlice S32768 ![0] (shapeCast S557056 out shapeCasts_S1x557056_S557056) slices_S557056_S32768_0

def psK (out : FVec Ideal S1x557056 .f32) : FVec Ideal S32768x8 .f32 :=
  shapeCast S32768x8 (extractStridedSlice S262144 ![32768] (shapeCast S557056 out shapeCasts_S1x557056_S557056) slices_S557056_S262144_32768) shapeCasts_S262144_S32768x8

def pnK (out : FVec Ideal S1x557056 .f32) : FVec Ideal S32768x8 .f32 :=
  shapeCast S32768x8 (extractStridedSlice S262144 ![294912] (shapeCast S557056 out shapeCasts_S1x557056_S557056) slices_S557056_S262144_294912) shapeCasts_S262144_S32768x8

def col (j : Nat) (x : FVec Ideal S32768x8 .f32) (h : S32768x8.Slices ![0, j] S32768x1 := by decide) : FVec Ideal S32768 .f32 :=
  shapeCast S32768 (extractStridedSlice S32768x1 ![0, j] x h) shapeCasts_S32768x1_S32768

abbrev c15 : FVec Ideal S32768 .f32 := broadcastInDim S32768 ![] bcast_S_S32768 (constant (F := Ideal) S_ .f32 0x3FC00000#32)

/-- `|pa + pb - sa - sb| / ((pa + pb + sa + sb) · 1.5)`: one axis of the discrete Laplacian. -/
def quot (pa pb sa sb : FVec Ideal S32768 .f32) : FVec Ideal S32768 .f32 :=
  Host.divf (Host.absf (subf (subf (addf pa pb) sa) sb)) (mulf (addf (addf (addf pa pb) sa) sb) c15)

def lap (ps pn : FVec Ideal S32768x8 .f32) : FVec Ideal S32768 .f32 :=
  addf (addf (quot (col 7 pn) (col 0 pn) (col 7 ps) (col 0 ps)) (quot (col 3 pn) (col 4 pn) (col 3 ps) (col 4 ps)))
    (quot (col 5 pn) (col 2 pn) (col 5 ps) (col 2 ps))

def idx12 (a12 : IVec S32768 32) : IVec S32768x1 32 :=
  broadcastInDim S32768x1 ![0] bcast_S32768_S32768x1_0 (select (cmpi .slt a12 (broadcastInDim S32768 ![] bcast_S_S32768 (constantI S_ 32 0#32)))
    (addi a12 (broadcastInDim S32768 ![] bcast_S_S32768 (constantI S_ 32 2097152#32))) a12)

/-- The mean absolute error of the prediction against the data at the centres. -/
def term1 (pred : FVec Ideal S32768 .f32) (a1 : FVec Ideal S2097152x1 .f32) (a12 : IVec S32768 32) : FVec Ideal S_ .f32 :=
  Host.divf (Host.reduceAdd (Host.absf (subf pred (shapeCast S32768
      (Host.gather gather_S2097152x1_S32768x1_S32768x1_1_0_n_n_0_1_11 a1 (idx12 a12)) shapeCasts_S32768x1_S32768)))
    (constant (F := Ideal) S_ .f32 0x00000000#32) reducesTo_S32768_S_d0 h_S_) (constant (F := Ideal) S_ .f32 0x47000000#32)

/-- The masked mean squared residual of the Laplacian `l` against the data at the centres. -/
def term2 (mask : FVec Ideal S32768 .f32) (a3 : FVec Ideal S2097152 .f32) (a12 : IVec S32768 32) (l : FVec Ideal S32768 .f32) :
    FVec Ideal S_ .f32 :=
  Host.divf (Host.reduceAdd (mulf mask (mulf (subf (Host.gather gather_S2097152_S32768x1_S32768_n_0_n_n_0_1_1 a3 (idx12 a12)) l)
      (subf (Host.gather gather_S2097152_S32768x1_S32768_n_0_n_n_0_1_1 a3 (idx12 a12)) l)))
    (constant (F := Ideal) S_ .f32 0x00000000#32) reducesTo_S32768_S_d0 h_S_)
    (maximumf (Host.reduceAdd mask (constant (F := Ideal) S_ .f32 0x00000000#32) reducesTo_S32768_S_d0 h_S_)
      (constant (F := Ideal) S_ .f32 0x3F800000#32))

def lossK (pred : FVec Ideal S32768 .f32) (ps pn : FVec Ideal S32768x8 .f32) (a1 : FVec Ideal S2097152x1 .f32)
    (a3 : FVec Ideal S2097152 .f32) (a12 : IVec S32768 32) (mask : FVec Ideal S32768 .f32) : FVec Ideal S_ .f32 :=
  addf (term1 pred a1 a12) (term2 mask a3 a12 (lap ps pn))

set_option maxHeartbeats 4000000 in
theorem tail_hostOps1_v180 (W : Valuation τ sig (Elt Ideal)) :
    StableHlo.after (hostOps1 (F := Ideal)) W (Proc.devRef .tc main_v180)
      = lossK (predK (W (Proc.devRef .tc main_v91))) (psK (W (Proc.devRef .tc main_v91))) (pnK (W (Proc.devRef .tc main_v91)))
          (W (Proc.devRef .tc main_arg1)) (W (Proc.devRef .tc main_arg3)) (W (Proc.devRef .tc main_arg12)) (W (Proc.devRef .tc main_v21)) := by
  after_results_simp
  rfl

variable (m : (ℓ : Loc nD τ sig) → Buf (Elt Ideal) ℓ)

theorem tail_eq (c : Dev nD) :
    Pipeline.afterTail₀ cfgs (dats m) 0 (V0 m) [hostOps1] c main_v180
      = lossK (predK ((dats m 0 c).arrAt 9 cfg0.N : FVec Ideal S1x557056 .f32)) (psK ((dats m 0 c).arrAt 9 cfg0.N : FVec Ideal S1x557056 .f32))
          (pnK ((dats m 0 c).arrAt 9 cfg0.N : FVec Ideal S1x557056 .f32))
          (V m c main_arg1) (V m c main_arg3) (V m c main_arg12) (V m c main_v21) := by
  unfold Pipeline.afterTail₀
  simp only [List.flatten_cons, List.flatten_nil, List.append_nil]
  rw [tail_hostOps1_v180]
  rw [Pipeline.withArrays_arr spec0 launch0.win.arr_inj c (V0 m c) _ 9,
    Pipeline.withArrays_of_ne spec0 c (V0 m c) _ main_arg1 (by decide),
    Pipeline.withArrays_of_ne spec0 c (V0 m c) _ main_arg3 (by decide),
    Pipeline.withArrays_of_ne spec0 c (V0 m c) _ main_arg12 (by decide),
    Pipeline.withArrays_of_ne spec0 c (V0 m c) _ main_v21 (by decide)]

theorem predK_apply (out : FVec Ideal S1x557056 .f32) (b : Fin 32768) :
    predK out (ix1 b) = out (ix2 (0 : Fin 1) ⟨b.val, by omega⟩) := by
  unfold predK
  refine (extractStridedSlice_apply _ _ _ (ix1 b) (ix1 (⟨b.val, by omega⟩ : Fin 557056)) (fun a => ?_)).trans ?_
  · match a with
    | ⟨0, _⟩ => exact (Nat.zero_add _).symm
  · exact shapeCast_1a_a_apply _ _ _

-- The (8b+j)-th element past the offset, through the two reshapes and the slice.
theorem pK_apply {off : Nat} (h : S557056.Slices ![off] S262144) (hoff : off + 262144 ≤ 557056) (out : FVec Ideal S1x557056 .f32)
    (b : Fin 32768) (j : Fin 8) :
    shapeCast S32768x8 (extractStridedSlice S262144 ![off] (shapeCast S557056 out shapeCasts_S1x557056_S557056) h) shapeCasts_S262144_S32768x8 (ix2 b j)
      = out (ix2 (0 : Fin 1) ⟨off + (8 * b.val + j.val), by omega⟩) := by
  refine (shapeCast_apply _ _ (ix2 b j) (ix1 (⟨8 * b.val + j.val, by omega⟩ : Fin 262144)) ?_).trans ?_
  · rw [Shape.rowMajor_val_one, Shape.rowMajor_val_two]
    show 8 * b.val + j.val = b.val * 8 + j.val
    omega
  refine (extractStridedSlice_apply _ _ _ (ix1 (⟨8 * b.val + j.val, by omega⟩ : Fin 262144))
    (ix1 (⟨off + (8 * b.val + j.val), by omega⟩ : Fin 557056)) (fun a => ?_)).trans ?_
  · match a with
    | ⟨0, _⟩ => rfl
  · exact shapeCast_1a_a_apply _ _ _

theorem psK_apply (out : FVec Ideal S1x557056 .f32) (b : Fin 32768) (j : Fin 8) :
    psK out (ix2 b j) = out (ix2 (0 : Fin 1) ⟨32768 + (8 * b.val + j.val), by omega⟩) :=
  pK_apply _ (by omega) out b j

theorem pnK_apply (out : FVec Ideal S1x557056 .f32) (b : Fin 32768) (j : Fin 8) :
    pnK out (ix2 b j) = out (ix2 (0 : Fin 1) ⟨294912 + (8 * b.val + j.val), by omega⟩) :=
  pK_apply _ (by omega) out b j

end Cert.KernelIdeal.Hand

end
-- ==== Proof.ROps.lean ====
import proofs.«412532_j62079457296719_3_alg».proof.Proof.Gen.ReferenceIdeal
import Idealize.ShloMosaic.Lib.StableHlo.Run
import Idealize.ShloMosaic.Lib.Pipeline.Regions

set_option maxRecDepth 4096

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

abbrev r0 : List (HloOp τ sig (Elt F)) :=
  [ StableHlo.nullary main_c (fun i => lit0 (S8x3.rowMajor i)),
    StableHlo.nullary main_c_0 (fun i => lit1 (S8x3.rowMajor i)),
    StableHlo.nullary main_c_1 (constantI S_ 32 16384#32) ]
abbrev r0_wr : List (Ref sig .tc) := [main_c, main_c_0, main_c_1]
abbrev r1 : List (HloOp τ sig (Elt F)) :=
  [ StableHlo.TRef.unary (.of main_c_1) (.of main_call0_v0) id,
    StableHlo.TRef.unary (.of main_call0_v0) (.of main_call0_v1) (broadcastInDim S32768 ![] bcast_S_S32768),
    StableHlo.TRef.binary (.of main_arg12) (.of main_call0_v1) (.of main_call0_v2) Host.divsi,
    StableHlo.TRef.unary (.of main_arg12) (.of main_call0_v3) signi,
    StableHlo.TRef.unary (.of main_call0_v0) (.of main_call0_v4) signi,
    StableHlo.TRef.unary (.of main_call0_v4) (.of main_call0_v5) (broadcastInDim S32768 ![] bcast_S_S32768),
    StableHlo.TRef.binary (.of main_call0_v3) (.of main_call0_v5) (.of main_call0_v6) (cmpi .ne),
    StableHlo.TRef.unary (.of main_call0_v0) (.of main_call0_v7) (broadcastInDim S32768 ![] bcast_S_S32768),
    StableHlo.TRef.binary (.of main_arg12) (.of main_call0_v7) (.of main_call0_v8) Host.remsi,
    StableHlo.TRef.nullary (.of main_call0_c) (constantI S_ 32 0#32),
    StableHlo.TRef.unary (.of main_call0_c) (.of main_call0_v9) (broadcastInDim S32768 ![] bcast_S_S32768),
    StableHlo.TRef.binary (.of main_call0_v8) (.of main_call0_v9) (.of main_call0_v10) (cmpi .ne),
    StableHlo.TRef.binary (.of main_call0_v6) (.of main_call0_v10) (.of main_call0_v11) andi,
    StableHlo.TRef.nullary (.of main_call0_c_0) (constantI S_ 32 1#32),
    StableHlo.TRef.unary (.of main_call0_c_0) (.of main_call0_v12) (broadcastInDim S32768 ![] bcast_S_S32768),
    StableHlo.TRef.binary (.of main_call0_v2) (.of main_call0_v12) (.of main_call0_v13) subi,
    StableHlo.TRef.ternary (.of main_call0_v11) (.of main_call0_v13) (.of main_call0_v2) (.of main_v0) select ]
abbrev r1_wr : List (Ref sig .tc) := [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v0]
abbrev r2 : List (HloOp τ sig (Elt F)) :=
  [ StableHlo.nullary main_c_2 (constantI S_ 32 16384#32) ]
abbrev r2_wr : List (Ref sig .tc) := [main_c_2]
abbrev r3 : List (HloOp τ sig (Elt F)) :=
  [ StableHlo.TRef.unary (.of main_c_2) (.of main_call1_v0) id,
    StableHlo.TRef.nullary (.of main_call1_c) (constantI S_ 32 0#32),
    StableHlo.TRef.binary (.of main_call1_v0) (.of main_call1_c) (.of main_call1_v1) (cmpi .eq),
    StableHlo.TRef.nullary (.of main_call1_c_0) (constantI S_ 32 1#32),
    StableHlo.TRef.ternary (.of main_call1_v1) (.of main_call1_c_0) (.of main_call1_v0) (.of main_call1_v2) select,
    StableHlo.TRef.unary main_call1_call0.v0 (.of main_call1_v3) (broadcastInDim S32768 ![] bcast_S_S32768),
    StableHlo.TRef.binary (.of main_arg12) (.of main_call1_v3) (.of main_call1_v4) Host.remsi,
    StableHlo.TRef.nullary (.of main_call1_c_1) (constantI S_ 32 0#32),
    StableHlo.TRef.unary (.of main_call1_c_1) (.of main_call1_v5) (broadcastInDim S32768 ![] bcast_S_S32768),
    StableHlo.TRef.binary (.of main_call1_v4) (.of main_call1_v5) (.of main_call1_v6) (cmpi .ne),
    StableHlo.TRef.nullary (.of main_call1_c_2) (constantI S_ 32 0#32),
    StableHlo.TRef.unary (.of main_call1_c_2) (.of main_call1_v7) (broadcastInDim S32768 ![] bcast_S_S32768),
    StableHlo.TRef.binary (.of main_call1_v4) (.of main_call1_v7) (.of main_call1_v8) (cmpi .slt),
    StableHlo.TRef.nullary (.of main_call1_c_3) (constantI S_ 32 0#32),
    StableHlo.TRef.binary main_call1_call0.v0 (.of main_call1_c_3) (.of main_call1_v9) (cmpi .slt),
    StableHlo.TRef.unary (.of main_call1_v9) (.of main_call1_v10) (broadcastInDim S32768 ![] bcast_S_S32768),
    StableHlo.TRef.binary (.of main_call1_v8) (.of main_call1_v10) (.of main_call1_v11) (cmpi .ne),
    StableHlo.TRef.binary (.of main_call1_v11) (.of main_call1_v6) (.of main_call1_v12) andi,
    StableHlo.TRef.unary main_call1_call0.v0 (.of main_call1_v13) (broadcastInDim S32768 ![] bcast_S_S32768),
    StableHlo.TRef.binary (.of main_call1_v4) (.of main_call1_v13) (.of main_call1_v14) addi,
    StableHlo.TRef.ternary (.of main_call1_v12) (.of main_call1_v14) (.of main_call1_v4) (.of main_v1) select ]
abbrev r3_wr : List (Ref sig .tc) := [main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v1]
abbrev r4 : List (HloOp τ sig (Elt F)) :=
  [ StableHlo.nullary main_c_3 (constantI S_ 32 128#32) ]
abbrev r4_wr : List (Ref sig .tc) := [main_c_3]
abbrev r5 : List (HloOp τ sig (Elt F)) :=
  [ StableHlo.TRef.unary (.of main_c_3) (.of main_call2_v0) id,
    StableHlo.TRef.unary (.of main_call2_v0) (.of main_call2_v1) (broadcastInDim S32768 ![] bcast_S_S32768),
    StableHlo.TRef.binary (.of main_v1) (.of main_call2_v1) (.of main_call2_v2) Host.divsi,
    StableHlo.TRef.unary (.of main_v1) (.of main_call2_v3) signi,
    StableHlo.TRef.unary (.of main_call2_v0) (.of main_call2_v4) signi,
    StableHlo.TRef.unary (.of main_call2_v4) (.of main_call2_v5) (broadcastInDim S32768 ![] bcast_S_S32768),
    StableHlo.TRef.binary (.of main_call2_v3) (.of main_call2_v5) (.of main_call2_v6) (cmpi .ne),
    StableHlo.TRef.unary (.of main_call2_v0) (.of main_call2_v7) (broadcastInDim S32768 ![] bcast_S_S32768),
    StableHlo.TRef.binary (.of main_v1) (.of main_call2_v7) (.of main_call2_v8) Host.remsi,
    StableHlo.TRef.nullary (.of main_call2_c) (constantI S_ 32 0#32),
    StableHlo.TRef.unary (.of main_call2_c) (.of main_call2_v9) (broadcastInDim S32768 ![] bcast_S_S32768),
    StableHlo.TRef.binary (.of main_call2_v8) (.of main_call2_v9) (.of main_call2_v10) (cmpi .ne),
    StableHlo.TRef.binary (.of main_call2_v6) (.of main_call2_v10) (.of main_call2_v11) andi,
    StableHlo.TRef.nullary (.of main_call2_c_0) (constantI S_ 32 1#32),
    StableHlo.TRef.unary (.of main_call2_c_0) (.of main_call2_v12) (broadcastInDim S32768 ![] bcast_S_S32768),
    StableHlo.TRef.binary (.of main_call2_v2) (.of main_call2_v12) (.of main_call2_v13) subi,
    StableHlo.TRef.ternary (.of main_call2_v11) (.of main_call2_v13) (.of main_call2_v2) (.of main_v2) select ]
abbrev r5_wr : List (Ref sig .tc) := [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v2]
abbrev r6 : List (HloOp τ sig (Elt F)) :=
  [ StableHlo.nullary main_c_4 (constantI S_ 32 128#32) ]
abbrev r6_wr : List (Ref sig .tc) := [main_c_4]
abbrev r7 : List (HloOp τ sig (Elt F)) :=
  [ StableHlo.TRef.unary (.of main_c_4) (.of main_call3_v0) id,
    StableHlo.TRef.nullary (.of main_call3_c) (constantI S_ 32 0#32),
    StableHlo.TRef.binary (.of main_call3_v0) (.of main_call3_c) (.of main_call3_v1) (cmpi .eq),
    StableHlo.TRef.nullary (.of main_call3_c_0) (constantI S_ 32 1#32),
    StableHlo.TRef.ternary (.of main_call3_v1) (.of main_call3_c_0) (.of main_call3_v0) (.of main_call3_v2) select,
    StableHlo.TRef.unary main_call3_call0.v0 (.of main_call3_v3) (broadcastInDim S32768 ![] bcast_S_S32768),
    StableHlo.TRef.binary (.of main_arg12) (.of main_call3_v3) (.of main_call3_v4) Host.remsi,
    StableHlo.TRef.nullary (.of main_call3_c_1) (constantI S_ 32 0#32),
    StableHlo.TRef.unary (.of main_call3_c_1) (.of main_call3_v5) (broadcastInDim S32768 ![] bcast_S_S32768),
    StableHlo.TRef.binary (.of main_call3_v4) (.of main_call3_v5) (.of main_call3_v6) (cmpi .ne),
    StableHlo.TRef.nullary (.of main_call3_c_2) (constantI S_ 32 0#32),
    StableHlo.TRef.unary (.of main_call3_c_2) (.of main_call3_v7) (broadcastInDim S32768 ![] bcast_S_S32768),
    StableHlo.TRef.binary (.of main_call3_v4) (.of main_call3_v7) (.of main_call3_v8) (cmpi .slt),
    StableHlo.TRef.nullary (.of main_call3_c_3) (constantI S_ 32 0#32),
    StableHlo.TRef.binary main_call3_call0.v0 (.of main_call3_c_3) (.of main_call3_v9) (cmpi .slt),
    StableHlo.TRef.unary (.of main_call3_v9) (.of main_call3_v10) (broadcastInDim S32768 ![] bcast_S_S32768),
    StableHlo.TRef.binary (.of main_call3_v8) (.of main_call3_v10) (.of main_call3_v11) (cmpi .ne),
    StableHlo.TRef.binary (.of main_call3_v11) (.of main_call3_v6) (.of main_call3_v12) andi,
    StableHlo.TRef.unary main_call3_call0.v0 (.of main_call3_v13) (broadcastInDim S32768 ![] bcast_S_S32768),
    StableHlo.TRef.binary (.of main_call3_v4) (.of main_call3_v13) (.of main_call3_v14) addi,
    StableHlo.TRef.ternary (.of main_call3_v12) (.of main_call3_v14) (.of main_call3_v4) (.of main_v3) select ]
abbrev r7_wr : List (Ref sig .tc) := [main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v3]
abbrev r8 : List (HloOp τ sig (Elt F)) :=
  [ StableHlo.nullary main_c_5 (constantI S_ 32 1#32),
    StableHlo.unary main_c_5 main_v4 (broadcastInDim S32768 ![] bcast_S_S32768),
    StableHlo.binary main_v0 main_v4 main_v5 (cmpi .sge),
    StableHlo.nullary main_c_6 (constantI S_ 32 127#32),
    StableHlo.unary main_c_6 main_v6 (broadcastInDim S32768 ![] bcast_S_S32768),
    StableHlo.binary main_v0 main_v6 main_v7 (cmpi .slt),
    StableHlo.binary main_v5 main_v7 main_v8 andi,
    StableHlo.nullary main_c_7 (constantI S_ 32 1#32),
    StableHlo.unary main_c_7 main_v9 (broadcastInDim S32768 ![] bcast_S_S32768),
    StableHlo.binary main_v2 main_v9 main_v10 (cmpi .sge),
    StableHlo.binary main_v8 main_v10 main_v11 andi,
    StableHlo.nullary main_c_8 (constantI S_ 32 127#32),
    StableHlo.unary main_c_8 main_v12 (broadcastInDim S32768 ![] bcast_S_S32768),
    StableHlo.binary main_v2 main_v12 main_v13 (cmpi .slt),
    StableHlo.binary main_v11 main_v13 main_v14 andi,
    StableHlo.nullary main_c_9 (constantI S_ 32 1#32),
    StableHlo.unary main_c_9 main_v15 (broadcastInDim S32768 ![] bcast_S_S32768),
    StableHlo.binary main_v3 main_v15 main_v16 (cmpi .sge),
    StableHlo.binary main_v14 main_v16 main_v17 andi,
    StableHlo.nullary main_c_10 (constantI S_ 32 127#32),
    StableHlo.unary main_c_10 main_v18 (broadcastInDim S32768 ![] bcast_S_S32768),
    StableHlo.binary main_v3 main_v18 main_v19 (cmpi .slt),
    StableHlo.binary main_v17 main_v19 main_v20 andi,
    StableHlo.unary main_v20 main_v21 (uitofp .f32),
    StableHlo.nullary main_c_11 (constantI S_ 32 0#32),
    StableHlo.unary main_c_11 main_v22 (broadcastInDim S32768 ![] bcast_S_S32768),
    StableHlo.binary main_arg12 main_v22 main_v23 (cmpi .slt),
    StableHlo.nullary main_c_12 (constantI S_ 32 2097152#32),
    StableHlo.unary main_c_12 main_v24 (broadcastInDim S32768 ![] bcast_S_S32768),
    StableHlo.binary main_arg12 main_v24 main_v25 addi,
    StableHlo.ternary main_v23 main_v25 main_arg12 main_v26 select,
    StableHlo.unary main_v26 main_v27 (broadcastInDim S32768x1 ![0] bcast_S32768_S32768x1_0),
    StableHlo.binary main_arg0 main_v27 main_v28 ((fun x i => Host.gather gather_S2097152x3_S32768x1_S32768x3_1_0_n_n_0_1_13 x i)),
    StableHlo.binary main_v28 main_arg4 main_v29 ((fun l r => Host.dotGeneral dot_S32768x3_S3x128_S32768x128_1_0_0_1_n_n none l r)),
    StableHlo.unary main_arg5 main_v30 (broadcastInDim S1x128 ![1] bcast_S128_S1x128_1),
    StableHlo.unary main_v30 main_v31 (broadcastInDim S32768x128 ![0, 1] bcast_S1x128_S32768x128_0_1),
    StableHlo.binary main_v29 main_v31 main_v32 addf,
    StableHlo.unary main_v32 main_v33 Host.tanh,
    StableHlo.binary main_v33 main_arg6 main_v34 ((fun l r => Host.dotGeneral dot_S32768x128_S128x128_S32768x128_1_0_0_1_n_n none l r)),
    StableHlo.unary main_arg7 main_v35 (broadcastInDim S1x128 ![1] bcast_S128_S1x128_1),
    StableHlo.unary main_v35 main_v36 (broadcastInDim S32768x128 ![0, 1] bcast_S1x128_S32768x128_0_1),
    StableHlo.binary main_v34 main_v36 main_v37 addf,
    StableHlo.unary main_v37 main_v38 Host.tanh,
    StableHlo.binary main_v38 main_arg8 main_v39 ((fun l r => Host.dotGeneral dot_S32768x128_S128x128_S32768x128_1_0_0_1_n_n none l r)),
    StableHlo.unary main_arg9 main_v40 (broadcastInDim S1x128 ![1] bcast_S128_S1x128_1),
    StableHlo.unary main_v40 main_v41 (broadcastInDim S32768x128 ![0, 1] bcast_S1x128_S32768x128_0_1),
    StableHlo.binary main_v39 main_v41 main_v42 addf,
    StableHlo.unary main_v42 main_v43 Host.tanh,
    StableHlo.binary main_v43 main_arg10 main_v44 ((fun l r => Host.dotGeneral dot_S32768x128_S128x1_S32768x1_1_0_0_1_n_n none l r)),
    StableHlo.unary main_arg11 main_v45 (broadcastInDim S1x1 ![1] bcast_S1_S1x1_1) ]
abbrev r8_wr : List (Ref sig .tc) := [main_c_5, main_v4, main_v5, main_c_6, main_v6, main_v7, main_v8, main_c_7, main_v9, main_v10, main_v11, main_c_8, main_v12, main_v13, main_v14, main_c_9, main_v15, main_v16, main_v17, main_c_10, main_v18, main_v19, main_v20, main_v21, main_c_11, main_v22, main_v23, main_c_12, main_v24, main_v25, main_v26, main_v27, main_v28, main_v29, main_v30, main_v31, main_v32, main_v33, main_v34, main_v35, main_v36, main_v37, main_v38, main_v39, main_v40, main_v41, main_v42, main_v43, main_v44, main_v45]
abbrev r9 : List (HloOp τ sig (Elt F)) :=
  [ StableHlo.unary main_v45 main_v46 (broadcastInDim S32768x1 ![0, 1] bcast_S1x1_S32768x1_0_1),
    StableHlo.binary main_v44 main_v46 main_v47 addf,
    StableHlo.reshape main_v47 main_v48 rfl shapeCasts_S32768x1_S32768,
    StableHlo.nullary main_c_13 (constantI S_ 32 0#32),
    StableHlo.unary main_c_13 main_v49 (broadcastInDim S32768 ![] bcast_S_S32768),
    StableHlo.binary main_arg12 main_v49 main_v50 (cmpi .slt),
    StableHlo.nullary main_c_14 (constantI S_ 32 2097152#32),
    StableHlo.unary main_c_14 main_v51 (broadcastInDim S32768 ![] bcast_S_S32768),
    StableHlo.binary main_arg12 main_v51 main_v52 addi,
    StableHlo.ternary main_v50 main_v52 main_arg12 main_v53 select,
    StableHlo.unary main_v53 main_v54 (broadcastInDim S32768x1 ![0] bcast_S32768_S32768x1_0),
    StableHlo.binary main_arg1 main_v54 main_v55 ((fun x i => Host.gather gather_S2097152x1_S32768x1_S32768x1_1_0_n_n_0_1_11 x i)),
    StableHlo.reshape main_v55 main_v56 rfl shapeCasts_S32768x1_S32768,
    StableHlo.binary main_v48 main_v56 main_v57 subf,
    StableHlo.unary main_v57 main_v58 Host.absf,
    StableHlo.nullary main_cst (constant S_ .f32 0x00000000#32),
    StableHlo.binary main_v58 main_cst main_v59 ((fun x v => Host.reduceAdd x v reducesTo_S32768_S_d0 h_S_)),
    StableHlo.nullary main_cst_15 (constant S_ .f32 0x47000000#32),
    StableHlo.binary main_v59 main_cst_15 main_v60 Host.divf,
    StableHlo.unary main_v0 main_v61 (broadcastInDim S32768x1 ![0] bcast_S32768_S32768x1_0),
    StableHlo.unary main_v2 main_v62 (broadcastInDim S32768x1 ![0] bcast_S32768_S32768x1_0),
    StableHlo.unary main_v3 main_v63 (broadcastInDim S32768x1 ![0] bcast_S32768_S32768x1_0),
    StableHlo.nary ![main_v61, main_v62, main_v63] main_v64 (fun u => concatenate S32768x3 1 [⟨S32768x1, u 0⟩, ⟨S32768x1, u 1⟩, ⟨S32768x1, u 2⟩] concatenates_S32768x1_S32768x1_S32768x1_S32768x3_d1),
    StableHlo.unary main_v64 main_v65 (broadcastInDim S32768x1x3 ![0, 2] bcast_S32768x3_S32768x1x3_0_2),
    StableHlo.unary main_c main_v66 (broadcastInDim S1x8x3 ![1, 2] bcast_S8x3_S1x8x3_1_2),
    StableHlo.unary main_v65 main_v67 (broadcastInDim S32768x8x3 ![0, 1, 2] bcast_S32768x1x3_S32768x8x3_0_1_2),
    StableHlo.unary main_v66 main_v68 (broadcastInDim S32768x8x3 ![0, 1, 2] bcast_S1x8x3_S32768x8x3_0_1_2),
    StableHlo.binary main_v67 main_v68 main_v69 addi,
    StableHlo.unary main_v64 main_v70 (broadcastInDim S32768x1x3 ![0, 2] bcast_S32768x3_S32768x1x3_0_2),
    StableHlo.unary main_c_0 main_v71 (broadcastInDim S1x8x3 ![1, 2] bcast_S8x3_S1x8x3_1_2),
    StableHlo.unary main_v70 main_v72 (broadcastInDim S32768x8x3 ![0, 1, 2] bcast_S32768x1x3_S32768x8x3_0_1_2),
    StableHlo.unary main_v71 main_v73 (broadcastInDim S32768x8x3 ![0, 1, 2] bcast_S1x8x3_S32768x8x3_0_1_2),
    StableHlo.binary main_v72 main_v73 main_v74 addi,
    StableHlo.unary main_v69 main_v75 ((extractStridedSlice S32768x8x1 ![0, 0, 0] · slices_S32768x8x3_S32768x8x1_0_0_0)),
    StableHlo.reshape main_v75 main_v76 rfl shapeCasts_S32768x8x1_S32768x8,
    StableHlo.nullary main_c_16 (constantI S_ 32 16129#32),
    StableHlo.unary main_c_16 main_v77 (broadcastInDim S32768x8 ![] bcast_S_S32768x8),
    StableHlo.binary main_v76 main_v77 main_v78 muli,
    StableHlo.unary main_v69 main_v79 ((extractStridedSlice S32768x8x1 ![0, 0, 1] · slices_S32768x8x3_S32768x8x1_0_0_1)),
    StableHlo.reshape main_v79 main_v80 rfl shapeCasts_S32768x8x1_S32768x8,
    StableHlo.nullary main_c_17 (constantI S_ 32 127#32),
    StableHlo.unary main_c_17 main_v81 (broadcastInDim S32768x8 ![] bcast_S_S32768x8),
    StableHlo.binary main_v80 main_v81 main_v82 muli,
    StableHlo.binary main_v78 main_v82 main_v83 addi,
    StableHlo.unary main_v69 main_v84 ((extractStridedSlice S32768x8x1 ![0, 0, 2] · slices_S32768x8x3_S32768x8x1_0_0_2)),
    StableHlo.reshape main_v84 main_v85 rfl shapeCasts_S32768x8x1_S32768x8,
    StableHlo.binary main_v83 main_v85 main_v86 addi,
    StableHlo.nullary main_c_18 (constantI S_ 32 0#32),
    StableHlo.nullary main_c_19 (constantI S_ 32 2048382#32) ]
abbrev r9_wr : List (Ref sig .tc) := [main_v46, main_v47, main_v48, main_c_13, main_v49, main_v50, main_c_14, main_v51, main_v52, main_v53, main_v54, main_v55, main_v56, main_v57, main_v58, main_cst, main_v59, main_cst_15, main_v60, main_v61, main_v62, main_v63, main_v64, main_v65, main_v66, main_v67, main_v68, main_v69, main_v70, main_v71, main_v72, main_v73, main_v74, main_v75, main_v76, main_c_16, main_v77, main_v78, main_v79, main_v80, main_c_17, main_v81, main_v82, main_v83, main_v84, main_v85, main_v86, main_c_18, main_c_19]
abbrev r10 : List (HloOp τ sig (Elt F)) :=
  [ StableHlo.TRef.unary (.of main_c_18) (.of main_call4_v0) id,
    StableHlo.TRef.unary (.of main_call4_v0) (.of main_call4_v1) (broadcastInDim S32768x8 ![] bcast_S_S32768x8),
    StableHlo.TRef.binary (.of main_call4_v1) (.of main_v86) (.of main_call4_v2) maxsi,
    StableHlo.TRef.unary (.of main_c_19) (.of main_call4_v3) id,
    StableHlo.TRef.unary (.of main_call4_v3) (.of main_call4_v4) (broadcastInDim S32768x8 ![] bcast_S_S32768x8),
    StableHlo.TRef.binary (.of main_call4_v4) (.of main_call4_v2) (.of main_v87) minsi ]
abbrev r10_wr : List (Ref sig .tc) := [main_call4_v0, main_call4_v1, main_call4_v2, main_call4_v3, main_call4_v4, main_v87]
abbrev r11 : List (HloOp τ sig (Elt F)) :=
  [ StableHlo.unary main_v74 main_v88 ((extractStridedSlice S32768x8x1 ![0, 0, 0] · slices_S32768x8x3_S32768x8x1_0_0_0)),
    StableHlo.reshape main_v88 main_v89 rfl shapeCasts_S32768x8x1_S32768x8,
    StableHlo.nullary main_c_20 (constantI S_ 32 16129#32),
    StableHlo.unary main_c_20 main_v90 (broadcastInDim S32768x8 ![] bcast_S_S32768x8),
    StableHlo.binary main_v89 main_v90 main_v91 muli,
    StableHlo.unary main_v74 main_v92 ((extractStridedSlice S32768x8x1 ![0, 0, 1] · slices_S32768x8x3_S32768x8x1_0_0_1)),
    StableHlo.reshape main_v92 main_v93 rfl shapeCasts_S32768x8x1_S32768x8,
    StableHlo.nullary main_c_21 (constantI S_ 32 127#32),
    StableHlo.unary main_c_21 main_v94 (broadcastInDim S32768x8 ![] bcast_S_S32768x8),
    StableHlo.binary main_v93 main_v94 main_v95 muli ]
abbrev r11_wr : List (Ref sig .tc) := [main_v88, main_v89, main_c_20, main_v90, main_v91, main_v92, main_v93, main_c_21, main_v94, main_v95]
abbrev r12 : List (HloOp τ sig (Elt F)) :=
  [ StableHlo.binary main_v91 main_v95 main_v96 addi,
    StableHlo.unary main_v74 main_v97 ((extractStridedSlice S32768x8x1 ![0, 0, 2] · slices_S32768x8x3_S32768x8x1_0_0_2)),
    StableHlo.reshape main_v97 main_v98 rfl shapeCasts_S32768x8x1_S32768x8,
    StableHlo.binary main_v96 main_v98 main_v99 addi,
    StableHlo.nullary main_c_22 (constantI S_ 32 0#32),
    StableHlo.nullary main_c_23 (constantI S_ 32 2097151#32) ]
abbrev r12_wr : List (Ref sig .tc) := [main_v96, main_v97, main_v98, main_v99, main_c_22, main_c_23]
abbrev r13 : List (HloOp τ sig (Elt F)) :=
  [ StableHlo.TRef.unary (.of main_c_22) (.of main_call5_v0) id,
    StableHlo.TRef.unary (.of main_call5_v0) (.of main_call5_v1) (broadcastInDim S32768x8 ![] bcast_S_S32768x8),
    StableHlo.TRef.binary (.of main_call5_v1) (.of main_v99) (.of main_call5_v2) maxsi,
    StableHlo.TRef.unary (.of main_c_23) (.of main_call5_v3) id,
    StableHlo.TRef.unary (.of main_call5_v3) (.of main_call5_v4) (broadcastInDim S32768x8 ![] bcast_S_S32768x8),
    StableHlo.TRef.binary (.of main_call5_v4) (.of main_call5_v2) (.of main_v100) minsi ]
abbrev r13_wr : List (Ref sig .tc) := [main_call5_v0, main_call5_v1, main_call5_v2, main_call5_v3, main_call5_v4, main_v100]
abbrev r14 : List (HloOp τ sig (Elt F)) :=
  [ StableHlo.nullary main_c_24 (constantI S_ 32 0#32),
    StableHlo.unary main_c_24 main_v101 (broadcastInDim S32768x8 ![] bcast_S_S32768x8),
    StableHlo.binary main_v87 main_v101 main_v102 (cmpi .slt),
    StableHlo.nullary main_c_25 (constantI S_ 32 2048383#32),
    StableHlo.unary main_c_25 main_v103 (broadcastInDim S32768x8 ![] bcast_S_S32768x8),
    StableHlo.binary main_v87 main_v103 main_v104 addi,
    StableHlo.ternary main_v102 main_v104 main_v87 main_v105 select,
    StableHlo.unary main_v105 main_v106 (broadcastInDim S32768x8x1 ![0, 1] bcast_S32768x8_S32768x8x1_0_1),
    StableHlo.binary main_arg2 main_v106 main_v107 ((fun x i => Host.gather gather_S2048383x3_S32768x8x1_S32768x8x3_2_0_n_n_0_2_13 x i)),
    StableHlo.reshape main_v107 main_v108 rfl shapeCasts_S32768x8x3_S262144x3,
    StableHlo.binary main_v108 main_arg4 main_v109 ((fun l r => Host.dotGeneral dot_S262144x3_S3x128_S262144x128_1_0_0_1_n_n none l r)),
    StableHlo.unary main_arg5 main_v110 (broadcastInDim S1x128 ![1] bcast_S128_S1x128_1),
    StableHlo.unary main_v110 main_v111 (broadcastInDim S262144x128 ![0, 1] bcast_S1x128_S262144x128_0_1),
    StableHlo.binary main_v109 main_v111 main_v112 addf,
    StableHlo.unary main_v112 main_v113 Host.tanh,
    StableHlo.binary main_v113 main_arg6 main_v114 ((fun l r => Host.dotGeneral dot_S262144x128_S128x128_S262144x128_1_0_0_1_n_n none l r)),
    StableHlo.unary main_arg7 main_v115 (broadcastInDim S1x128 ![1] bcast_S128_S1x128_1),
    StableHlo.unary main_v115 main_v116 (broadcastInDim S262144x128 ![0, 1] bcast_S1x128_S262144x128_0_1),
    StableHlo.binary main_v114 main_v116 main_v117 addf,
    StableHlo.unary main_v117 main_v118 Host.tanh,
    StableHlo.binary main_v118 main_arg8 main_v119 ((fun l r => Host.dotGeneral dot_S262144x128_S128x128_S262144x128_1_0_0_1_n_n none l r)),
    StableHlo.unary main_arg9 main_v120 (broadcastInDim S1x128 ![1] bcast_S128_S1x128_1),
    StableHlo.unary main_v120 main_v121 (broadcastInDim S262144x128 ![0, 1] bcast_S1x128_S262144x128_0_1),
    StableHlo.binary main_v119 main_v121 main_v122 addf,
    StableHlo.unary main_v122 main_v123 Host.tanh,
    StableHlo.binary main_v123 main_arg10 main_v124 ((fun l r => Host.dotGeneral dot_S262144x128_S128x1_S262144x1_1_0_0_1_n_n none l r)),
    StableHlo.unary main_arg11 main_v125 (broadcastInDim S1x1 ![1] bcast_S1_S1x1_1),
    StableHlo.unary main_v125 main_v126 (broadcastInDim S262144x1 ![0, 1] bcast_S1x1_S262144x1_0_1),
    StableHlo.binary main_v124 main_v126 main_v127 addf,
    StableHlo.reshape main_v127 main_v128 rfl shapeCasts_S262144x1_S32768x8,
    StableHlo.nullary main_c_26 (constantI S_ 32 0#32),
    StableHlo.unary main_c_26 main_v129 (broadcastInDim S32768x8 ![] bcast_S_S32768x8),
    StableHlo.binary main_v100 main_v129 main_v130 (cmpi .slt),
    StableHlo.nullary main_c_27 (constantI S_ 32 2097152#32),
    StableHlo.unary main_c_27 main_v131 (broadcastInDim S32768x8 ![] bcast_S_S32768x8),
    StableHlo.binary main_v100 main_v131 main_v132 addi,
    StableHlo.ternary main_v130 main_v132 main_v100 main_v133 select,
    StableHlo.unary main_v133 main_v134 (broadcastInDim S32768x8x1 ![0, 1] bcast_S32768x8_S32768x8x1_0_1),
    StableHlo.binary main_arg0 main_v134 main_v135 ((fun x i => Host.gather gather_S2097152x3_S32768x8x1_S32768x8x3_2_0_n_n_0_2_13 x i)),
    StableHlo.reshape main_v135 main_v136 rfl shapeCasts_S32768x8x3_S262144x3,
    StableHlo.binary main_v136 main_arg4 main_v137 ((fun l r => Host.dotGeneral dot_S262144x3_S3x128_S262144x128_1_0_0_1_n_n none l r)),
    StableHlo.unary main_arg5 main_v138 (broadcastInDim S1x128 ![1] bcast_S128_S1x128_1),
    StableHlo.unary main_v138 main_v139 (broadcastInDim S262144x128 ![0, 1] bcast_S1x128_S262144x128_0_1),
    StableHlo.binary main_v137 main_v139 main_v140 addf,
    StableHlo.unary main_v140 main_v141 Host.tanh,
    StableHlo.binary main_v141 main_arg6 main_v142 ((fun l r => Host.dotGeneral dot_S262144x128_S128x128_S262144x128_1_0_0_1_n_n none l r)),
    StableHlo.unary main_arg7 main_v143 (broadcastInDim S1x128 ![1] bcast_S128_S1x128_1),
    StableHlo.unary main_v143 main_v144 (broadcastInDim S262144x128 ![0, 1] bcast_S1x128_S262144x128_0_1),
    StableHlo.binary main_v142 main_v144 main_v145 addf,
    StableHlo.unary main_v145 main_v146 Host.tanh,
    StableHlo.binary main_v146 main_arg8 main_v147 ((fun l r => Host.dotGeneral dot_S262144x128_S128x128_S262144x128_1_0_0_1_n_n none l r)),
    StableHlo.unary main_arg9 main_v148 (broadcastInDim S1x128 ![1] bcast_S128_S1x128_1),
    StableHlo.unary main_v148 main_v149 (broadcastInDim S262144x128 ![0, 1] bcast_S1x128_S262144x128_0_1) ]
abbrev r14_wr : List (Ref sig .tc) := [main_c_24, main_v101, main_v102, main_c_25, main_v103, main_v104, main_v105, main_v106, main_v107, main_v108, main_v109, main_v110, main_v111, main_v112, main_v113, main_v114, main_v115, main_v116, main_v117, main_v118, main_v119, main_v120, main_v121, main_v122, main_v123, main_v124, main_v125, main_v126, main_v127, main_v128, main_c_26, main_v129, main_v130, main_c_27, main_v131, main_v132, main_v133, main_v134, main_v135, main_v136, main_v137, main_v138, main_v139, main_v140, main_v141, main_v142, main_v143, main_v144, main_v145, main_v146, main_v147, main_v148, main_v149]
abbrev r15 : List (HloOp τ sig (Elt F)) :=
  [ StableHlo.binary main_v147 main_v149 main_v150 addf,
    StableHlo.unary main_v150 main_v151 Host.tanh,
    StableHlo.binary main_v151 main_arg10 main_v152 ((fun l r => Host.dotGeneral dot_S262144x128_S128x1_S262144x1_1_0_0_1_n_n none l r)),
    StableHlo.unary main_arg11 main_v153 (broadcastInDim S1x1 ![1] bcast_S1_S1x1_1),
    StableHlo.unary main_v153 main_v154 (broadcastInDim S262144x1 ![0, 1] bcast_S1x1_S262144x1_0_1),
    StableHlo.binary main_v152 main_v154 main_v155 addf,
    StableHlo.reshape main_v155 main_v156 rfl shapeCasts_S262144x1_S32768x8,
    StableHlo.unary main_v156 main_v157 ((extractStridedSlice S32768x1 ![0, 7] · slices_S32768x8_S32768x1_0_7)),
    StableHlo.reshape main_v157 main_v158 rfl shapeCasts_S32768x1_S32768,
    StableHlo.unary main_v156 main_v159 ((extractStridedSlice S32768x1 ![0, 0] · slices_S32768x8_S32768x1_0_0)),
    StableHlo.reshape main_v159 main_v160 rfl shapeCasts_S32768x1_S32768,
    StableHlo.unary main_v128 main_v161 ((extractStridedSlice S32768x1 ![0, 7] · slices_S32768x8_S32768x1_0_7)),
    StableHlo.reshape main_v161 main_v162 rfl shapeCasts_S32768x1_S32768,
    StableHlo.unary main_v128 main_v163 ((extractStridedSlice S32768x1 ![0, 0] · slices_S32768x8_S32768x1_0_0)),
    StableHlo.reshape main_v163 main_v164 rfl shapeCasts_S32768x1_S32768,
    StableHlo.binary main_v158 main_v160 main_v165 addf,
    StableHlo.binary main_v165 main_v162 main_v166 subf,
    StableHlo.binary main_v166 main_v164 main_v167 subf,
    StableHlo.unary main_v167 main_v168 Host.absf,
    StableHlo.binary main_v158 main_v160 main_v169 addf,
    StableHlo.binary main_v169 main_v162 main_v170 addf,
    StableHlo.binary main_v170 main_v164 main_v171 addf,
    StableHlo.nullary main_cst_28 (constant S_ .f32 0x3FC00000#32),
    StableHlo.unary main_cst_28 main_v172 (broadcastInDim S32768 ![] bcast_S_S32768),
    StableHlo.binary main_v171 main_v172 main_v173 mulf,
    StableHlo.binary main_v168 main_v173 main_v174 Host.divf,
    StableHlo.unary main_v156 main_v175 ((extractStridedSlice S32768x1 ![0, 3] · slices_S32768x8_S32768x1_0_3)),
    StableHlo.reshape main_v175 main_v176 rfl shapeCasts_S32768x1_S32768,
    StableHlo.unary main_v156 main_v177 ((extractStridedSlice S32768x1 ![0, 4] · slices_S32768x8_S32768x1_0_4)),
    StableHlo.reshape main_v177 main_v178 rfl shapeCasts_S32768x1_S32768,
    StableHlo.unary main_v128 main_v179 ((extractStridedSlice S32768x1 ![0, 3] · slices_S32768x8_S32768x1_0_3)),
    StableHlo.reshape main_v179 main_v180 rfl shapeCasts_S32768x1_S32768,
    StableHlo.unary main_v128 main_v181 ((extractStridedSlice S32768x1 ![0, 4] · slices_S32768x8_S32768x1_0_4)),
    StableHlo.reshape main_v181 main_v182 rfl shapeCasts_S32768x1_S32768,
    StableHlo.binary main_v176 main_v178 main_v183 addf,
    StableHlo.binary main_v183 main_v180 main_v184 subf,
    StableHlo.binary main_v184 main_v182 main_v185 subf,
    StableHlo.unary main_v185 main_v186 Host.absf,
    StableHlo.binary main_v176 main_v178 main_v187 addf,
    StableHlo.binary main_v187 main_v180 main_v188 addf,
    StableHlo.binary main_v188 main_v182 main_v189 addf,
    StableHlo.nullary main_cst_29 (constant S_ .f32 0x3FC00000#32),
    StableHlo.unary main_cst_29 main_v190 (broadcastInDim S32768 ![] bcast_S_S32768),
    StableHlo.binary main_v189 main_v190 main_v191 mulf,
    StableHlo.binary main_v186 main_v191 main_v192 Host.divf,
    StableHlo.binary main_v174 main_v192 main_v193 addf,
    StableHlo.unary main_v156 main_v194 ((extractStridedSlice S32768x1 ![0, 5] · slices_S32768x8_S32768x1_0_5)),
    StableHlo.reshape main_v194 main_v195 rfl shapeCasts_S32768x1_S32768,
    StableHlo.unary main_v156 main_v196 ((extractStridedSlice S32768x1 ![0, 2] · slices_S32768x8_S32768x1_0_2)),
    StableHlo.reshape main_v196 main_v197 rfl shapeCasts_S32768x1_S32768,
    StableHlo.unary main_v128 main_v198 ((extractStridedSlice S32768x1 ![0, 5] · slices_S32768x8_S32768x1_0_5)),
    StableHlo.reshape main_v198 main_v199 rfl shapeCasts_S32768x1_S32768,
    StableHlo.unary main_v128 main_v200 ((extractStridedSlice S32768x1 ![0, 2] · slices_S32768x8_S32768x1_0_2)),
    StableHlo.reshape main_v200 main_v201 rfl shapeCasts_S32768x1_S32768,
    StableHlo.binary main_v195 main_v197 main_v202 addf,
    StableHlo.binary main_v202 main_v199 main_v203 subf,
    StableHlo.binary main_v203 main_v201 main_v204 subf,
    StableHlo.unary main_v204 main_v205 Host.absf,
    StableHlo.binary main_v195 main_v197 main_v206 addf,
    StableHlo.binary main_v206 main_v199 main_v207 addf ]
abbrev r15_wr : List (Ref sig .tc) := [main_v150, main_v151, main_v152, main_v153, main_v154, main_v155, main_v156, main_v157, main_v158, main_v159, main_v160, main_v161, main_v162, main_v163, main_v164, main_v165, main_v166, main_v167, main_v168, main_v169, main_v170, main_v171, main_cst_28, main_v172, main_v173, main_v174, main_v175, main_v176, main_v177, main_v178, main_v179, main_v180, main_v181, main_v182, main_v183, main_v184, main_v185, main_v186, main_v187, main_v188, main_v189, main_cst_29, main_v190, main_v191, main_v192, main_v193, main_v194, main_v195, main_v196, main_v197, main_v198, main_v199, main_v200, main_v201, main_v202, main_v203, main_v204, main_v205, main_v206, main_v207]
abbrev r16 : List (HloOp τ sig (Elt F)) :=
  [ StableHlo.binary main_v207 main_v201 main_v208 addf,
    StableHlo.nullary main_cst_30 (constant S_ .f32 0x3FC00000#32),
    StableHlo.unary main_cst_30 main_v209 (broadcastInDim S32768 ![] bcast_S_S32768),
    StableHlo.binary main_v208 main_v209 main_v210 mulf,
    StableHlo.binary main_v205 main_v210 main_v211 Host.divf,
    StableHlo.binary main_v193 main_v211 main_v212 addf,
    StableHlo.nullary main_c_31 (constantI S_ 32 0#32),
    StableHlo.unary main_c_31 main_v213 (broadcastInDim S32768 ![] bcast_S_S32768),
    StableHlo.binary main_arg12 main_v213 main_v214 (cmpi .slt),
    StableHlo.nullary main_c_32 (constantI S_ 32 2097152#32),
    StableHlo.unary main_c_32 main_v215 (broadcastInDim S32768 ![] bcast_S_S32768),
    StableHlo.binary main_arg12 main_v215 main_v216 addi,
    StableHlo.ternary main_v214 main_v216 main_arg12 main_v217 select,
    StableHlo.unary main_v217 main_v218 (broadcastInDim S32768x1 ![0] bcast_S32768_S32768x1_0),
    StableHlo.binary main_arg3 main_v218 main_v219 ((fun x i => Host.gather gather_S2097152_S32768x1_S32768_n_0_n_n_0_1_1 x i)),
    StableHlo.binary main_v219 main_v212 main_v220 subf,
    StableHlo.binary main_v220 main_v220 main_v221 mulf,
    StableHlo.binary main_v21 main_v221 main_v222 mulf,
    StableHlo.nullary main_cst_33 (constant S_ .f32 0x00000000#32),
    StableHlo.binary main_v222 main_cst_33 main_v223 ((fun x v => Host.reduceAdd x v reducesTo_S32768_S_d0 h_S_)),
    StableHlo.nullary main_cst_34 (constant S_ .f32 0x00000000#32),
    StableHlo.binary main_v21 main_cst_34 main_v224 ((fun x v => Host.reduceAdd x v reducesTo_S32768_S_d0 h_S_)),
    StableHlo.nullary main_cst_35 (constant S_ .f32 0x3F800000#32),
    StableHlo.binary main_v224 main_cst_35 main_v225 maximumf,
    StableHlo.binary main_v223 main_v225 main_v226 Host.divf,
    StableHlo.binary main_v60 main_v226 main_v227 addf ]
abbrev r16_wr : List (Ref sig .tc) := [main_v208, main_cst_30, main_v209, main_v210, main_v211, main_v212, main_c_31, main_v213, main_v214, main_c_32, main_v215, main_v216, main_v217, main_v218, main_v219, main_v220, main_v221, main_v222, main_cst_33, main_v223, main_cst_34, main_v224, main_cst_35, main_v225, main_v226, main_v227]

abbrev segs : List (List (HloOp τ sig (Elt F))) := [r0, r1, r2, r3, r4, r5, r6, r7, r8, r9, r10, r11, r12, r13, r14, r15, r16]

abbrev wrs : List (List (Ref sig .tc)) := [r0_wr, r1_wr, r2_wr, r3_wr, r4_wr, r5_wr, r6_wr, r7_wr, r8_wr, r9_wr, r10_wr, r11_wr, r12_wr, r13_wr, r14_wr, r15_wr, r16_wr]

abbrev ops : List (HloOp τ sig (Elt F)) := List.flatten segs

theorem main_part0_chain (c : Dev nD) : main_part0 (F := F) c = (Pipeline.chainK [StableHlo.seq r0, StableHlo.seq r1, StableHlo.seq r2, StableHlo.seq r3, StableHlo.seq r4, StableHlo.seq r5, StableHlo.seq r6, StableHlo.seq r7] (StableHlo.seq r8) : Prog (TpuEff nD τ sig (Elt F) (Pipeline.Sig Λ₀ (Fin 0) fun p => (pcfgs (F := F) p).Adm) .tc) PUnit) := by
  chain_rfl

theorem main_part1_chain (c : Dev nD) : main_part1 (F := F) c = (Pipeline.chainK [StableHlo.seq r9, StableHlo.seq r10] (StableHlo.seq r11) : Prog (TpuEff nD τ sig (Elt F) (Pipeline.Sig Λ₀ (Fin 0) fun p => (pcfgs (F := F) p).Adm) .tc) PUnit) := by
  chain_rfl

theorem main_part2_chain (c : Dev nD) : main_part2 (F := F) c = (Pipeline.chainK [StableHlo.seq r12, StableHlo.seq r13] (StableHlo.seq r14) : Prog (TpuEff nD τ sig (Elt F) (Pipeline.Sig Λ₀ (Fin 0) fun p => (pcfgs (F := F) p).Adm) .tc) PUnit) := by
  chain_rfl

theorem main_part3_chain (c : Dev nD) : main_part3 (F := F) c = (Pipeline.chainK [] (StableHlo.seq r15) : Prog (TpuEff nD τ sig (Elt F) (Pipeline.Sig Λ₀ (Fin 0) fun p => (pcfgs (F := F) p).Adm) .tc) PUnit) := by
  chain_rfl

theorem main_part4_chain (c : Dev nD) : main_part4 (F := F) c = (Pipeline.chain [StableHlo.seq r16] : Prog (TpuEff nD τ sig (Elt F) (Pipeline.Sig Λ₀ (Fin 0) fun p => (pcfgs (F := F) p).Adm) .tc) PUnit) := by
  chain_rfl

theorem chain_map_seq {nD : Nat} {τ : Topo} {sig : RefSig} {Val : EltTy → Type} {Λ : Labels} (opss : List (List (HloOp τ sig Val))) :
    (Pipeline.chain (opss.map StableHlo.seq) : Prog (TpuEff nD τ sig Val Λ .tc) PUnit) = StableHlo.seq opss.flatten := by
  induction opss with
  | nil => rfl
  | cons l ls ih => rw [List.map_cons, Pipeline.chain_cons, List.flatten_cons, StableHlo.seq_append, ih]

theorem main_eq (c : Dev nD) : main (F := F) c = StableHlo.seq ops := by
  rw [← chain_map_seq segs]
  show (main_part0 (F := F) c >>= fun _ => main_part1 (F := F) c >>= fun _ => main_part2 (F := F) c >>= fun _ => main_part3 (F := F) c >>= fun _ => main_part4 (F := F) c) = _
  rewrite [main_part4_chain, main_part3_chain, Pipeline.chainK_bind_chain, main_part2_chain, Pipeline.chainK_bind_chain, main_part1_chain, Pipeline.chainK_bind_chain, main_part0_chain, Pipeline.chainK_bind_chain]
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ StableHlo.tcRefs τ sig := by
  have h : ∀ l ∈ (segs : List (List (HloOp τ sig (Elt F)))), l.Forall fun op => op.bufs ⊆ StableHlo.tcRefs τ sig := by
    intro l hl
    simp only [List.mem_cons, List.mem_nil_iff, or_false] at hl
    rcases hl with rfl | rfl | rfl | rfl | rfl | rfl | rfl | rfl | rfl | rfl | rfl | rfl | rfl | rfl | rfl | rfl | rfl <;>
      simp only [List.Forall, StableHlo.nullary_bufs_sub, StableHlo.unary_bufs_sub, StableHlo.binary_bufs_sub,
        StableHlo.ternary_bufs_sub, StableHlo.reshape_bufs_sub, StableHlo.nary_bufs_sub, and_self]
  exact List.forall_iff_forall_mem.mpr fun a ha =>
    let ⟨l, hl, hal⟩ := List.mem_flatten.mp ha
    List.forall_iff_forall_mem.mp (h l hl) a hal

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  StableHlo.run_seq scopedRefs_eq scopedSems_eq defs main (fun _ => ops) main_eq (fun _ => ops_sub) m ρ

abbrev ER (m : (ℓ : Loc nD τ sig) → Buf (Elt F) ℓ) (c : Dev nD) : Valuation τ sig (Elt F) := StableHlo.after ops (StableHlo.launchContents m c)

end Cert.ReferenceIdeal.Hand

end
-- ==== Proof.RWrites.lean ====
import proofs.«412532_j62079457296719_3_alg».proof.Proof.ROps
import proofs.«412532_j62079457296719_3_alg».proof.Proof.LibSeg

set_option maxRecDepth 4096

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

/-- Each operation writes the one buffer of the value it defines, and the lists name them in order. -/
theorem segs_writes : List.Forall₂ Cert.LibSeg.WritesIn (segs (F := F)) wrs := by
  repeat' first | exact .nil | refine .cons (Cert.LibSeg.writesIn_of_map rfl) ?_

/-- Stretch `k` of the line, named `s`: what it leaves at a reference nothing later writes is there at the end. -/
theorem at_ (s : List (HloOp τ sig (Elt F))) (k : Nat) (L : Valuation τ sig (Elt F)) {z : Ref sig .tc}
    (hz : z ∉ (wrs.drop (k + 1)).flatten) (hs : (segs (F := F)).getD k [] = s := by rfl) :
    StableHlo.after ops L (Proc.devRef .tc z) = StableHlo.after s (StableHlo.after (segs.take k).flatten L) (Proc.devRef .tc z) :=
  Cert.LibSeg.at_seg segs_writes s k L hz hs

theorem pre_ (k : Nat) (L : Valuation τ sig (Elt F)) {x : Ref sig .tc} (hx : x ∉ (wrs.drop k).flatten) :
    StableHlo.after (segs.take k).flatten L (Proc.devRef .tc x) = StableHlo.after ops L (Proc.devRef .tc x) :=
  Cert.LibSeg.at_pre segs_writes k L hx

theorem unwritten (L : Valuation τ sig (Elt F)) {z : Ref sig .tc} (hz : z ∉ wrs.flatten) :
    StableHlo.after ops L (Proc.devRef .tc z) = L (Proc.devRef .tc z) :=
  StableHlo.after_of_writes_sub ops L (Cert.LibSeg.writes_flatten segs_writes) hz

end Cert.ReferenceIdeal.Hand

end
-- ==== Proof.RMlp.lean ====
import proofs.«412532_j62079457296719_3_alg».proof.Proof.ROps
import proofs.«412532_j62079457296719_3_alg».proof.Proof.RWrites
import proofs.«412532_j62079457296719_3_alg».proof.Proof.LibSeg
import proofs.«412532_j62079457296719_3_alg».proof.Proof.LibPlainDot
import proofs.«412532_j62079457296719_3_alg».proof.Proof.Spec
import Idealize.ShloMosaic.Lib.ValueIdx
import Idealize.ShloMosaic.Lib.Pipeline.Value
import Idealize.ShloMosaic.Lib.StableHlo.Run

set_option maxRecDepth 8192

noncomputable section

namespace Cert.ReferenceIdeal.Hand

open Cert.ReferenceIdeal Cert.ReferenceIdeal.Gen
open Idealize.ShloMosaic Idealize.ShloMosaic.TcCoe Idealize.SL.Sem
open Idealize.ShloMosaic.ValueIdx Cert.Spec
open scoped BigOperators

namespace RMlp

section Rows

variable {R : Nat}

theorem bias_apply {α : Type} {n : Nat} (b : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![R, n]⟩ ![0, 1]) (r : Fin R) (j : Fin n) :
    broadcastInDim ⟨2, ![R, n]⟩ ![0, 1] h2 (broadcastInDim ⟨2, ![1, n]⟩ ![1] h1 b) (ix2 r j) = b (ix1 j) := by
  rw [broadcastInDim_apply ![0, 1] h2 _ (ix2 r j) (ix2 (0 : Fin 1) j) (fun a => by
    match a with
    | ⟨0, _⟩ => rfl
    | ⟨1, _⟩ =>
      show j.val = if n = 1 then 0 else j.val
      split
      · have := j.isLt; omega
      · rfl)]
  exact broadcastInDim_apply ![1] h1 b (ix2 (0 : Fin 1) j) (ix1 j) (fun a => by
    match a with
    | ⟨0, _⟩ =>
      show j.val = if n = 1 then 0 else j.val
      split
      · have := j.isLt; omega
      · rfl)

/-- One hidden layer applied to every row: `tanh (x W + b)`. -/
def hid {K : Nat} (d : DotDims ⟨2, ![R, K]⟩ ⟨2, ![K, 128]⟩ ⟨2, ![R, 128]⟩)
    (h1 : (⟨1, ![128]⟩ : Shape).BroadcastsInDim ⟨2, ![1, 128]⟩ ![1])
    (h2 : (⟨2, ![1, 128]⟩ : Shape).BroadcastsInDim ⟨2, ![R, 128]⟩ ![0, 1])
    (x : FVec Ideal ⟨2, ![R, K]⟩ .f32) (W : FVec Ideal ⟨2, ![K, 128]⟩ .f32) (b : FVec Ideal ⟨1, ![128]⟩ .f32) :
    FVec Ideal ⟨2, ![R, 128]⟩ .f32 :=
  Host.tanh (addf (Host.dotGeneral d none x W) (broadcastInDim ⟨2, ![R, 128]⟩ ![0, 1] h2 (broadcastInDim ⟨2, ![1, 128]⟩ ![1] h1 b)))

theorem hidden_apply {K : Nat} (d : DotDims ⟨2, ![R, K]⟩ ⟨2, ![K, 128]⟩ ⟨2, ![R, 128]⟩)
    (hlc : d.lhsContracting = [1]) (hrc : d.rhsContracting = [0]) (hln : d.lhsNonContracting = [0])
    (hrn : d.rhsNonContracting = [1]) (hlb : d.lhsBatch = []) (hrb : d.rhsBatch = [])
    (h1 : (⟨1, ![128]⟩ : Shape).BroadcastsInDim ⟨2, ![1, 128]⟩ ![1])
    (h2 : (⟨2, ![1, 128]⟩ : Shape).BroadcastsInDim ⟨2, ![R, 128]⟩ ![0, 1])
    (x : FVec Ideal ⟨2, ![R, K]⟩ .f32) (W : FVec Ideal ⟨2, ![K, 128]⟩ .f32) (b : FVec Ideal ⟨1, ![128]⟩ .f32) (r : Fin R) :
    (fun j : Fin 128 => hid d h1 h2 x W b (ix2 r j)) = layer W b (fun k => x (ix2 r k)) := by
  funext j
  show Ideal.tanh (Host.dotGeneral d none x W (ix2 r j) + _) = _
  rw [bias_apply b h1 h2 r j]
  simp only [Host.dotGeneral]
  rw [Cert.LibPlainDot.dotGeneral_apply d hlc hrc hln hrn hlb hrb none .single x W r j]
  rfl

theorem chain_apply
    (d1 : DotDims ⟨2, ![R, 3]⟩ ⟨2, ![3, 128]⟩ ⟨2, ![R, 128]⟩)
    (d2 : DotDims ⟨2, ![R, 128]⟩ ⟨2, ![128, 128]⟩ ⟨2, ![R, 128]⟩)
    (d4 : DotDims ⟨2, ![R, 128]⟩ ⟨2, ![128, 1]⟩ ⟨2, ![R, 1]⟩)
    (h1lc : d1.lhsContracting = [1]) (h1rc : d1.rhsContracting = [0]) (h1ln : d1.lhsNonContracting = [0])
    (h1rn : d1.rhsNonContracting = [1]) (h1lb : d1.lhsBatch = []) (h1rb : d1.rhsBatch = [])
    (h2lc : d2.lhsContracting = [1]) (h2rc : d2.rhsContracting = [0]) (h2ln : d2.lhsNonContracting = [0])
    (h2rn : d2.rhsNonContracting = [1]) (h2lb : d2.lhsBatch = []) (h2rb : d2.rhsBatch = [])
    (h4lc : d4.lhsContracting = [1]) (h4rc : d4.rhsContracting = [0]) (h4ln : d4.lhsNonContracting = [0])
    (h4rn : d4.rhsNonContracting = [1]) (h4lb : d4.lhsBatch = []) (h4rb : d4.rhsBatch = [])
    (ha : (⟨1, ![128]⟩ : Shape).BroadcastsInDim ⟨2, ![1, 128]⟩ ![1])
    (hb : (⟨2, ![1, 128]⟩ : Shape).BroadcastsInDim ⟨2, ![R, 128]⟩ ![0, 1])
    (hc : (⟨1, ![1]⟩ : Shape).BroadcastsInDim ⟨2, ![1, 1]⟩ ![1])
    (hd : (⟨2, ![1, 1]⟩ : Shape).BroadcastsInDim ⟨2, ![R, 1]⟩ ![0, 1])
    (W1 : FVec Ideal ⟨2, ![3, 128]⟩ .f32) (b1 : FVec Ideal ⟨1, ![128]⟩ .f32)
    (W2 : FVec Ideal ⟨2, ![128, 128]⟩ .f32) (b2 : FVec Ideal ⟨1, ![128]⟩ .f32)
    (W3 : FVec Ideal ⟨2, ![128, 128]⟩ .f32) (b3 : FVec Ideal ⟨1, ![128]⟩ .f32)
    (W4 : FVec Ideal ⟨2, ![128, 1]⟩ .f32) (b4 : FVec Ideal ⟨1, ![1]⟩ .f32)
    (x : FVec Ideal ⟨2, ![R, 3]⟩ .f32) (r : Fin R) :
    addf (Host.dotGeneral d4 none (hid d2 ha hb (hid d2 ha hb (hid d1 ha hb x W1 b1) W2 b2) W3 b3) W4)
        (broadcastInDim ⟨2, ![R, 1]⟩ ![0, 1] hd (broadcastInDim ⟨2, ![1, 1]⟩ ![1] hc b4)) (ix2 r (0 : Fin 1))
      = mlp W1 b1 W2 b2 W3 b3 W4 b4 (fun k => x (ix2 r k)) := by
  rw [addf_apply, bias_apply b4 hc hd r (0 : Fin 1)]
  simp only [Host.dotGeneral]
  rw [Cert.LibPlainDot.dotGeneral_apply d4 h4lc h4rc h4ln h4rn h4lb h4rb none .single _ W4 r (0 : Fin 1)]
  unfold mlp
  rw [← hidden_apply d1 h1lc h1rc h1ln h1rn h1lb h1rb ha hb x W1 b1 r,
    ← hidden_apply d2 h2lc h2rc h2ln h2rn h2lb h2rb ha hb _ W2 b2 r,
    ← hidden_apply d2 h2lc h2rc h2ln h2rn h2lb h2rb ha hb _ W3 b3 r]

end Rows

section Stretches

open StableHlo

theorem r8_v44 (W : Valuation τ sig (Elt Ideal)) :
    (StableHlo.after r8 W ↑main_v44 : FVec Ideal S32768x1 .f32)
      = Host.dotGeneral (F := Ideal) (φ₂ := .f32) dot_S32768x128_S128x1_S32768x1_1_0_0_1_n_n none
          (hid dot_S32768x128_S128x128_S32768x128_1_0_0_1_n_n bcast_S128_S1x128_1 bcast_S1x128_S32768x128_0_1 (hid dot_S32768x128_S128x128_S32768x128_1_0_0_1_n_n bcast_S128_S1x128_1 bcast_S1x128_S32768x128_0_1 (hid dot_S32768x3_S3x128_S32768x128_1_0_0_1_n_n bcast_S128_S1x128_1 bcast_S1x128_S32768x128_0_1 (StableHlo.after r8 W ↑main_v28) (StableHlo.after r8 W ↑main_arg4) (StableHlo.after r8 W ↑main_arg5)) (StableHlo.after r8 W ↑main_arg6) (StableHlo.after r8 W ↑main_arg7)) (StableHlo.after r8 W ↑main_arg8) (StableHlo.after r8 W ↑main_arg9))
          (StableHlo.after r8 W ↑main_arg10) := by
  rw [Cert.LibSeg.after_cut 33 (r8 (F := Ideal)) W]
  generalize StableHlo.after (List.take 33 r8) W = W'
  simp only [List.drop_succ_cons, List.drop_zero]
  after_results_simp
  all_goals rfl

theorem r8_v45 (W : Valuation τ sig (Elt Ideal)) :
    (StableHlo.after r8 W ↑main_v45 : FVec Ideal S1x1 .f32) = (broadcastInDim (s := S1) S1x1 ![1] bcast_S1_S1x1_1 (StableHlo.after r8 W ↑main_arg11 : FVec Ideal S1 .f32)) := by
  rw [Cert.LibSeg.after_cut 33 (r8 (F := Ideal)) W]
  generalize StableHlo.after (List.take 33 r8) W = W'
  simp only [List.drop_succ_cons, List.drop_zero]
  after_results_simp
  all_goals rfl

theorem r9_v47 (W : Valuation τ sig (Elt Ideal)) :
    (StableHlo.after r9 W ↑main_v47 : FVec Ideal S32768x1 .f32) = (addf (F := Ideal) (s := S32768x1) (φ := .f32) (StableHlo.after r9 W ↑main_v44 : FVec Ideal S32768x1 .f32) (broadcastInDim (s := S1x1) S32768x1 ![0, 1] bcast_S1x1_S32768x1_0_1 (StableHlo.after r9 W ↑main_v45 : FVec Ideal S1x1 .f32))) := by
  after_results_simp
  all_goals rfl

theorem r9_v48 (W : Valuation τ sig (Elt Ideal)) (b : Fin 32768) :
    (StableHlo.after r9 W ↑main_v48 : FVec Ideal S32768 .f32) (ix1 b) = (StableHlo.after r9 W ↑main_v47 : FVec Ideal S32768x1 .f32) (ix2 b (0 : Fin 1)) := by
  after_results_simp
  exact shapeCast_apply _ _ _ _ (by
    show ((⟨2, ![32768, 1]⟩ : Shape).rowMajor (ix2 b (0 : Fin 1))).val = ((⟨1, ![32768]⟩ : Shape).rowMajor (ix1 b)).val
    rw [Shape.rowMajor_val_two, Shape.rowMajor_val_one]
    show b.val * 1 + 0 = b.val
    omega)

set_option maxHeartbeats 4000000 in
theorem r14_v127 (W : Valuation τ sig (Elt Ideal)) :
    (StableHlo.after r14 W ↑main_v127 : FVec Ideal S262144x1 .f32)
      = addf (Host.dotGeneral (F := Ideal) (φ₂ := .f32) dot_S262144x128_S128x1_S262144x1_1_0_0_1_n_n none
          (hid dot_S262144x128_S128x128_S262144x128_1_0_0_1_n_n bcast_S128_S1x128_1 bcast_S1x128_S262144x128_0_1 (hid dot_S262144x128_S128x128_S262144x128_1_0_0_1_n_n bcast_S128_S1x128_1 bcast_S1x128_S262144x128_0_1 (hid dot_S262144x3_S3x128_S262144x128_1_0_0_1_n_n bcast_S128_S1x128_1 bcast_S1x128_S262144x128_0_1 (StableHlo.after r14 W ↑main_v108) (StableHlo.after r14 W ↑main_arg4) (StableHlo.after r14 W ↑main_arg5)) (StableHlo.after r14 W ↑main_arg6) (StableHlo.after r14 W ↑main_arg7)) (StableHlo.after r14 W ↑main_arg8) (StableHlo.after r14 W ↑main_arg9))
          (StableHlo.after r14 W ↑main_arg10))
        (broadcastInDim S262144x1 ![0, 1] bcast_S1x1_S262144x1_0_1 (broadcastInDim S1x1 ![1] bcast_S1_S1x1_1 (StableHlo.after r14 W ↑main_arg11))) := by
  rw [Cert.LibSeg.after_cut 10 (r14 (F := Ideal)) W]
  generalize StableHlo.after (List.take 10 r14) W = W'
  simp only [List.drop_succ_cons, List.drop_zero]
  after_results_simp
  all_goals rfl

theorem r14_v128 (W : Valuation τ sig (Elt Ideal)) (b : Fin 32768) (j : Fin 8) :
    (StableHlo.after r14 W ↑main_v128 : FVec Ideal S32768x8 .f32) (ix2 b j) = (StableHlo.after r14 W ↑main_v127 : FVec Ideal S262144x1 .f32) (ix2 (⟨8 * b.val + j.val, by omega⟩ : Fin 262144) (0 : Fin 1)) := by
  rw [Cert.LibSeg.after_cut 10 (r14 (F := Ideal)) W]
  generalize StableHlo.after (List.take 10 r14) W = W'
  simp only [List.drop_succ_cons, List.drop_zero]
  after_results_simp
  exact shapeCast_apply _ _ _ _ (by
    show ((⟨2, ![262144, 1]⟩ : Shape).rowMajor (ix2 (⟨8 * b.val + j.val, by omega⟩ : Fin 262144) (0 : Fin 1))).val
      = ((⟨2, ![32768, 8]⟩ : Shape).rowMajor (ix2 b j)).val
    rw [Shape.rowMajor_val_two, Shape.rowMajor_val_two]
    show (8 * b.val + j.val) * 1 + 0 = b.val * 8 + j.val
    omega)

theorem r14_v147 (W : Valuation τ sig (Elt Ideal)) :
    (StableHlo.after r14 W ↑main_v147 : FVec Ideal S262144x128 .f32)
      = Host.dotGeneral (F := Ideal) (φ₂ := .f32) dot_S262144x128_S128x128_S262144x128_1_0_0_1_n_n none
          (hid dot_S262144x128_S128x128_S262144x128_1_0_0_1_n_n bcast_S128_S1x128_1 bcast_S1x128_S262144x128_0_1 (hid dot_S262144x3_S3x128_S262144x128_1_0_0_1_n_n bcast_S128_S1x128_1 bcast_S1x128_S262144x128_0_1 (StableHlo.after r14 W ↑main_v136) (StableHlo.after r14 W ↑main_arg4) (StableHlo.after r14 W ↑main_arg5)) (StableHlo.after r14 W ↑main_arg6) (StableHlo.after r14 W ↑main_arg7))
          (StableHlo.after r14 W ↑main_arg8) := by
  rw [Cert.LibSeg.after_cut 40 (r14 (F := Ideal)) W]
  generalize StableHlo.after (List.take 40 r14) W = W'
  simp only [List.drop_succ_cons, List.drop_zero]
  after_results_simp
  all_goals rfl

theorem r14_v149 (W : Valuation τ sig (Elt Ideal)) :
    (StableHlo.after r14 W ↑main_v149 : FVec Ideal S262144x128 .f32) = (broadcastInDim (s := S1x128) S262144x128 ![0, 1] bcast_S1x128_S262144x128_0_1 (broadcastInDim (s := S128) S1x128 ![1] bcast_S128_S1x128_1 (StableHlo.after r14 W ↑main_arg9 : FVec Ideal S128 .f32))) := by
  rw [Cert.LibSeg.after_cut 40 (r14 (F := Ideal)) W]
  generalize StableHlo.after (List.take 40 r14) W = W'
  simp only [List.drop_succ_cons, List.drop_zero]
  after_results_simp
  all_goals rfl

theorem r15_v155 (W : Valuation τ sig (Elt Ideal)) :
    (StableHlo.after r15 W ↑main_v155 : FVec Ideal S262144x1 .f32)
      = (addf (F := Ideal) (s := S262144x1) (φ := .f32) (Host.dotGeneral (F := Ideal) (φ₁ := .f32) (φ₂ := .f32) dot_S262144x128_S128x1_S262144x1_1_0_0_1_n_n none (Host.tanh (F := Ideal) (s := S262144x128) (φ := .f32) (addf (F := Ideal) (s := S262144x128) (φ := .f32) (StableHlo.after r15 W ↑main_v147 : FVec Ideal S262144x128 .f32) (StableHlo.after r15 W ↑main_v149 : FVec Ideal S262144x128 .f32))) (StableHlo.after r15 W ↑main_arg10 : FVec Ideal S128x1 .f32)) (broadcastInDim (s := S1x1) S262144x1 ![0, 1] bcast_S1x1_S262144x1_0_1 (broadcastInDim (s := S1) S1x1 ![1] bcast_S1_S1x1_1 (StableHlo.after r15 W ↑main_arg11 : FVec Ideal S1 .f32)))) := by
  after_results_simp
  all_goals rfl

theorem r15_v156 (W : Valuation τ sig (Elt Ideal)) (b : Fin 32768) (j : Fin 8) :
    (StableHlo.after r15 W ↑main_v156 : FVec Ideal S32768x8 .f32) (ix2 b j) = (StableHlo.after r15 W ↑main_v155 : FVec Ideal S262144x1 .f32) (ix2 (⟨8 * b.val + j.val, by omega⟩ : Fin 262144) (0 : Fin 1)) := by
  after_results_simp
  exact shapeCast_apply _ _ _ _ (by
    show ((⟨2, ![262144, 1]⟩ : Shape).rowMajor (ix2 (⟨8 * b.val + j.val, by omega⟩ : Fin 262144) (0 : Fin 1))).val
      = ((⟨2, ![32768, 8]⟩ : Shape).rowMajor (ix2 b j)).val
    rw [Shape.rowMajor_val_two, Shape.rowMajor_val_two]
    show (8 * b.val + j.val) * 1 + 0 = b.val * 8 + j.val
    omega)

end Stretches

section Final

open StableHlo

theorem v48_line (L : Valuation τ sig (Elt Ideal)) (b : Fin 32768) :
    (StableHlo.after ops L ↑main_v48 : FVec Ideal S32768 .f32) (ix1 b)
      = mlp (L ↑main_arg4 : FVec Ideal S3x128 .f32) (L ↑main_arg5 : FVec Ideal S128 .f32) (L ↑main_arg6 : FVec Ideal S128x128 .f32) (L ↑main_arg7 : FVec Ideal S128 .f32) (L ↑main_arg8 : FVec Ideal S128x128 .f32) (L ↑main_arg9 : FVec Ideal S128 .f32) (L ↑main_arg10 : FVec Ideal S128x1 .f32) (L ↑main_arg11 : FVec Ideal S1 .f32)
          (fun k => (StableHlo.after ops L ↑main_v28 : FVec Ideal S32768x3 .f32) (ix2 b k)) := by
  rw [at_ r9 9 L (z := main_v48) (by decide), r9_v48, r9_v47, ← at_ r9 9 L (z := main_v44) (by decide), ← at_ r9 9 L (z := main_v45) (by decide),
    at_ r8 8 L (z := main_v44) (by decide), at_ r8 8 L (z := main_v45) (by decide), r8_v44, r8_v45,
    ← at_ r8 8 L (z := main_v28) (by decide), ← at_ r8 8 L (z := main_arg4) (by decide), ← at_ r8 8 L (z := main_arg5) (by decide), ← at_ r8 8 L (z := main_arg6) (by decide), ← at_ r8 8 L (z := main_arg7) (by decide), ← at_ r8 8 L (z := main_arg8) (by decide), ← at_ r8 8 L (z := main_arg9) (by decide), ← at_ r8 8 L (z := main_arg10) (by decide), ← at_ r8 8 L (z := main_arg11) (by decide),
    unwritten L (z := main_arg4) (by decide), unwritten L (z := main_arg5) (by decide), unwritten L (z := main_arg6) (by decide), unwritten L (z := main_arg7) (by decide), unwritten L (z := main_arg8) (by decide), unwritten L (z := main_arg9) (by decide), unwritten L (z := main_arg10) (by decide), unwritten L (z := main_arg11) (by decide)]
  exact chain_apply dot_S32768x3_S3x128_S32768x128_1_0_0_1_n_n dot_S32768x128_S128x128_S32768x128_1_0_0_1_n_n dot_S32768x128_S128x1_S32768x1_1_0_0_1_n_n rfl rfl rfl rfl rfl rfl rfl rfl rfl rfl rfl rfl rfl rfl rfl rfl rfl rfl
    bcast_S128_S1x128_1 bcast_S1x128_S32768x128_0_1 bcast_S1_S1x1_1 bcast_S1x1_S32768x1_0_1 _ _ _ _ _ _ _ _ _ _

theorem v128_line (L : Valuation τ sig (Elt Ideal)) (b : Fin 32768) (j : Fin 8) :
    (StableHlo.after ops L ↑main_v128 : FVec Ideal S32768x8 .f32) (ix2 b j)
      = mlp (L ↑main_arg4 : FVec Ideal S3x128 .f32) (L ↑main_arg5 : FVec Ideal S128 .f32) (L ↑main_arg6 : FVec Ideal S128x128 .f32) (L ↑main_arg7 : FVec Ideal S128 .f32) (L ↑main_arg8 : FVec Ideal S128x128 .f32) (L ↑main_arg9 : FVec Ideal S128 .f32) (L ↑main_arg10 : FVec Ideal S128x1 .f32) (L ↑main_arg11 : FVec Ideal S1 .f32)
          (fun k => (StableHlo.after ops L ↑main_v108 : FVec Ideal S262144x3 .f32) (ix2 (⟨8 * b.val + j.val, by omega⟩ : Fin 262144) k)) := by
  rw [at_ r14 14 L (z := main_v128) (by decide), r14_v128, r14_v127,
    ← at_ r14 14 L (z := main_v108) (by decide), ← at_ r14 14 L (z := main_arg4) (by decide), ← at_ r14 14 L (z := main_arg5) (by decide), ← at_ r14 14 L (z := main_arg6) (by decide), ← at_ r14 14 L (z := main_arg7) (by decide), ← at_ r14 14 L (z := main_arg8) (by decide), ← at_ r14 14 L (z := main_arg9) (by decide), ← at_ r14 14 L (z := main_arg10) (by decide), ← at_ r14 14 L (z := main_arg11) (by decide),
    unwritten L (z := main_arg4) (by decide), unwritten L (z := main_arg5) (by decide), unwritten L (z := main_arg6) (by decide), unwritten L (z := main_arg7) (by decide), unwritten L (z := main_arg8) (by decide), unwritten L (z := main_arg9) (by decide), unwritten L (z := main_arg10) (by decide), unwritten L (z := main_arg11) (by decide)]
  exact chain_apply dot_S262144x3_S3x128_S262144x128_1_0_0_1_n_n dot_S262144x128_S128x128_S262144x128_1_0_0_1_n_n dot_S262144x128_S128x1_S262144x1_1_0_0_1_n_n rfl rfl rfl rfl rfl rfl rfl rfl rfl rfl rfl rfl rfl rfl rfl rfl rfl rfl
    bcast_S128_S1x128_1 bcast_S1x128_S262144x128_0_1 bcast_S1_S1x1_1 bcast_S1x1_S262144x1_0_1 _ _ _ _ _ _ _ _ _ _

theorem v156_line (L : Valuation τ sig (Elt Ideal)) (b : Fin 32768) (j : Fin 8) :
    (StableHlo.after ops L ↑main_v156 : FVec Ideal S32768x8 .f32) (ix2 b j)
      = mlp (L ↑main_arg4 : FVec Ideal S3x128 .f32) (L ↑main_arg5 : FVec Ideal S128 .f32) (L ↑main_arg6 : FVec Ideal S128x128 .f32) (L ↑main_arg7 : FVec Ideal S128 .f32) (L ↑main_arg8 : FVec Ideal S128x128 .f32) (L ↑main_arg9 : FVec Ideal S128 .f32) (L ↑main_arg10 : FVec Ideal S128x1 .f32) (L ↑main_arg11 : FVec Ideal S1 .f32)
          (fun k => (StableHlo.after ops L ↑main_v136 : FVec Ideal S262144x3 .f32) (ix2 (⟨8 * b.val + j.val, by omega⟩ : Fin 262144) k)) := by
  rw [at_ r15 15 L (z := main_v156) (by decide), r15_v156, r15_v155,
    ← at_ r15 15 L (z := main_v147) (by decide), ← at_ r15 15 L (z := main_v149) (by decide), ← at_ r15 15 L (z := main_arg10) (by decide), ← at_ r15 15 L (z := main_arg11) (by decide),
    at_ r14 14 L (z := main_v147) (by decide), at_ r14 14 L (z := main_v149) (by decide), r14_v147, r14_v149,
    ← at_ r14 14 L (z := main_v136) (by decide), ← at_ r14 14 L (z := main_arg4) (by decide), ← at_ r14 14 L (z := main_arg5) (by decide), ← at_ r14 14 L (z := main_arg6) (by decide), ← at_ r14 14 L (z := main_arg7) (by decide), ← at_ r14 14 L (z := main_arg8) (by decide), ← at_ r14 14 L (z := main_arg9) (by decide),
    unwritten L (z := main_arg4) (by decide), unwritten L (z := main_arg5) (by decide), unwritten L (z := main_arg6) (by decide), unwritten L (z := main_arg7) (by decide), unwritten L (z := main_arg8) (by decide), unwritten L (z := main_arg9) (by decide), unwritten L (z := main_arg10) (by decide), unwritten L (z := main_arg11) (by decide)]
  exact chain_apply dot_S262144x3_S3x128_S262144x128_1_0_0_1_n_n dot_S262144x128_S128x128_S262144x128_1_0_0_1_n_n dot_S262144x128_S128x1_S262144x1_1_0_0_1_n_n rfl rfl rfl rfl rfl rfl rfl rfl rfl rfl rfl rfl rfl rfl rfl rfl rfl rfl
    bcast_S128_S1x128_1 bcast_S1x128_S262144x128_0_1 bcast_S1_S1x1_1 bcast_S1x1_S262144x1_0_1 _ _ _ _ _ _ _ _ _ _

end Final

end RMlp

section Statements

variable (m : (ℓ : Loc nD τ sig) → Buf (Elt Ideal) ℓ) (c : Dev nD)

theorem v48_apply (b : Fin 32768) :
    ER m c ↑main_v48 (ix1 b)
      = mlp (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
          (fun k => ER m c ↑main_v28 (ix2 b k)) :=
  RMlp.v48_line (StableHlo.launchContents m c) b

theorem v128_apply (b : Fin 32768) (j : Fin 8) :
    ER m c ↑main_v128 (ix2 b j)
      = mlp (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
          (fun k => ER m c ↑main_v108 (ix2 ⟨8 * b.val + j.val, by omega⟩ k)) :=
  RMlp.v128_line (StableHlo.launchContents m c) b j

theorem v156_apply (b : Fin 32768) (j : Fin 8) :
    ER m c ↑main_v156 (ix2 b j)
      = mlp (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
          (fun k => ER m c ↑main_v136 (ix2 ⟨8 * b.val + j.val, by omega⟩ k)) :=
  RMlp.v156_line (StableHlo.launchContents m c) b j

end Statements

end Cert.ReferenceIdeal.Hand

end
-- ==== Proof.RGather.lean ====
import proofs.«412532_j62079457296719_3_alg».proof.Proof.ROps
import proofs.«412532_j62079457296719_3_alg».proof.Proof.RWrites
import proofs.«412532_j62079457296719_3_alg».proof.Proof.LibSeg
import proofs.«412532_j62079457296719_3_alg».proof.Proof.LibRowsTake
import proofs.«412532_j62079457296719_3_alg».proof.Proof.Spec
import Idealize.ShloMosaic.Lib.Pipeline.Value

set_option maxRecDepth 4096

noncomputable section

namespace Cert.ReferenceIdeal.Hand

open Cert.ReferenceIdeal Cert.ReferenceIdeal.Gen
open Idealize.ShloMosaic Idealize.ShloMosaic.TcCoe Idealize.SL.Sem
open Idealize.ShloMosaic.ValueIdx Cert.Spec

section RowsTake3

variable {α : Type}

abbrev rowsTake3Dims (N B J C : Nat)
    (wf : GatherDims.WF ⟨2, ![N, C]⟩ ⟨3, ![B, J, 1]⟩ ⟨3, ![B, J, C]⟩ [2] [0] [] [0] [] 2 ![1, C]) :
    GatherDims ⟨2, ![N, C]⟩ ⟨3, ![B, J, 1]⟩ ⟨3, ![B, J, C]⟩ where
  offsetDims := [2]
  collapsedSliceDims := [0]
  operandBatchingDims := []
  startIndicesBatchingDims := []
  startIndexMap := [0]
  indexVectorDim := 2
  sliceSizes := ![1, C]
  wf := wf

theorem gather_rowsTake3_apply {N B J C w : Nat} (hN : 0 < N)
    (wf : GatherDims.WF ⟨2, ![N, C]⟩ ⟨3, ![B, J, 1]⟩ ⟨3, ![B, J, C]⟩ [2] [0] [] [0] [] 2 ![1, C])
    (x : (⟨2, ![N, C]⟩ : Shape).Idx → α) (idx : IVec ⟨3, ![B, J, 1]⟩ w) (b : Fin B) (j : Fin J) (k : Fin C) :
    Host.gather (rowsTake3Dims N B J C wf) x idx (ix3 b j k)
      = x (ix2 ⟨min (idx (ix3 b j (0 : Fin 1))).toInt.toNat (N - 1), by omega⟩ k) := by
  have n10 : (1 : Fin 2) ∉ ([0] : List (Fin 2)) := by decide
  unfold Host.gather
  congr 1
  funext a
  refine Fin.ext ?_
  match a with
  | ⟨0, _⟩ =>

    show (rowsTake3Dims N B J C wf).start (ix3 b j k) idx 0 + (rowsTake3Dims N B J C wf).batchCoord (ix3 b j k) 0
      + (rowsTake3Dims N B J C wf).offCoord (ix3 b j k) 0 = min (idx (ix3 b j (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsTake3Dims N B J C wf).startIndexMap from List.mem_singleton.mpr rfl)]
    have hsi : (rowsTake3Dims N B J C wf).siIdx (ix3 b j k) ⟨List.idxOf (0 : Fin 2) (rowsTake3Dims N B J C wf).startIndexMap,
        List.idxOf_lt_length_iff.2 (List.mem_singleton.mpr rfl)⟩ = ix3 b j (0 : Fin 1) := by
      funext e; refine Fin.ext ?_
      match e with
      | ⟨0, _⟩ => rfl
      | ⟨1, _⟩ => rfl
      | ⟨2, _⟩ => rfl
    rw [hsi]
    rfl
  | ⟨1, _⟩ =>

    show (rowsTake3Dims N B J C wf).start (ix3 b j k) idx 1 + (rowsTake3Dims N B J C wf).batchCoord (ix3 b j k) 1
      + (rowsTake3Dims N B J C wf).offCoord (ix3 b j k) 1 = k.val
    unfold GatherDims.start
    rw [dif_neg (show (1 : Fin 2) ∉ (rowsTake3Dims N B J C wf).startIndexMap from n10),
      GatherDims.batchCoord_eq_zero _ _ _ List.not_mem_nil]
    simp only [Nat.zero_add, Nat.add_zero]
    unfold GatherDims.offCoord
    rw [dif_pos ((GatherDims.mem_sKept _ _).mpr ⟨n10, List.not_mem_nil⟩)]
    rfl

end RowsTake3

section Stretch

variable {F : FTy → Type} [FloatOps F]

theorem r8_v28 (W : Valuation τ sig (Elt F)) :
    StableHlo.after r8 W ↑main_v28
      = Host.gather gather_S2097152x3_S32768x1_S32768x3_1_0_n_n_0_1_13 (StableHlo.after r8 W ↑main_arg0)
          (broadcastInDim S32768x1 ![0] bcast_S32768_S32768x1_0 (StableHlo.after r8 W ↑main_v26)) := by
  rw [Cert.LibSeg.after_cut 31 (r8 (F := F)) W]
  generalize StableHlo.after (List.take 31 r8) W = W'
  simp only [List.drop_succ_cons, List.drop_zero]
  after_results_simp
  all_goals rfl

theorem r14_v108 (W : Valuation τ sig (Elt F)) :
    StableHlo.after r14 W ↑main_v108
      = shapeCast S262144x3 (Host.gather gather_S2048383x3_S32768x8x1_S32768x8x3_2_0_n_n_0_2_13 (StableHlo.after r14 W ↑main_arg2)
          (broadcastInDim S32768x8x1 ![0, 1] bcast_S32768x8_S32768x8x1_0_1 (StableHlo.after r14 W ↑main_v105)))
          shapeCasts_S32768x8x3_S262144x3 := by
  rw [Cert.LibSeg.after_cut 7 (r14 (F := F)) W]
  generalize StableHlo.after (List.take 7 r14) W = W'
  simp only [List.drop_succ_cons, List.drop_zero]
  after_results_simp
  all_goals rfl

theorem r14_v136 (W : Valuation τ sig (Elt F)) :
    StableHlo.after r14 W ↑main_v136
      = shapeCast S262144x3 (Host.gather gather_S2097152x3_S32768x8x1_S32768x8x3_2_0_n_n_0_2_13 (StableHlo.after r14 W ↑main_arg0)
          (broadcastInDim S32768x8x1 ![0, 1] bcast_S32768x8_S32768x8x1_0_1 (StableHlo.after r14 W ↑main_v133)))
          shapeCasts_S32768x8x3_S262144x3 := by
  rw [Cert.LibSeg.after_cut 37 (r14 (F := F)) W]
  generalize StableHlo.after (List.take 37 r14) W = W'
  simp only [List.drop_succ_cons, List.drop_zero]
  after_results_simp
  all_goals rfl

end Stretch

section Final

/-- Row `8 b + j` of the eight-neighbour gather is the table's row at the clamped index word `(b, j)`. -/
theorem take8_apply {N : Nat} (hN : 0 < N)
    (wf : GatherDims.WF ⟨2, ![N, 3]⟩ ⟨3, ![32768, 8, 1]⟩ ⟨3, ![32768, 8, 3]⟩ [2] [0] [] [0] [] 2 ![1, 3])
    (x : (⟨2, ![N, 3]⟩ : Shape).Idx → EReal) (idx : IVec S32768x8 32) (b : Fin 32768) (j : Fin 8) (k : Fin 3) :
    shapeCast S262144x3 (Host.gather (rowsTake3Dims N 32768 8 3 wf) x
        (broadcastInDim S32768x8x1 ![0, 1] bcast_S32768x8_S32768x8x1_0_1 idx)) shapeCasts_S32768x8x3_S262144x3
        (ix2 ⟨8 * b.val + j.val, by omega⟩ k)
      = x (ix2 (clampRow N hN (idx (ix2 b j))) k) := by
  refine (shapeCast_apply _ shapeCasts_S32768x8x3_S262144x3 _ (ix3 b j k) ?_).trans ?_
  · rw [Shape.rowMajor_val_three, Shape.rowMajor_val_two]
    show (b.val * 8 + j.val) * 3 + k.val = (8 * b.val + j.val) * 3 + k.val
    omega
  refine (gather_rowsTake3_apply hN wf x _ b j k).trans ?_
  have hw : broadcastInDim S32768x8x1 ![0, 1] bcast_S32768x8_S32768x8x1_0_1 idx (ix3 b j (0 : Fin 1)) = idx (ix2 b j) :=
    broadcastInDim_apply (![0, 1] : Fin 2 → Fin 3) bcast_S32768x8_S32768x8x1_0_1 idx (ix3 b j (0 : Fin 1)) (ix2 b j)
      (fun a => by match a with | ⟨0, _⟩ => rfl | ⟨1, _⟩ => rfl)
  refine congrArg x (congrArg (fun r : Fin N => ix2 r k) (Fin.ext ?_))
  show min (broadcastInDim S32768x8x1 ![0, 1] bcast_S32768x8_S32768x8x1_0_1 idx (ix3 b j (0 : Fin 1))).toInt.toNat (N - 1)
    = min (idx (ix2 b j)).toInt.toNat (N - 1)
  rw [hw]

variable (m : (ℓ : Loc nD τ sig) → Buf (Elt Ideal) ℓ) (c : Dev nD)

theorem v28_apply (b : Fin 32768) (k : Fin 3) :
    ER m c ↑main_v28 (ix2 b k)
      = m ((c.tc : Thread nD τ).loc main_arg0) (ix2 (clampRow 2097152 (by decide) (ER m c ↑main_v26 (ix1 b))) k) := by
  unfold ER
  rw [at_ r8 8 _ (z := main_v28) (by decide), r8_v28, ← at_ r8 8 _ (z := main_v26) (by decide),
    ← at_ r8 8 _ (z := main_arg0) (by decide), unwritten _ (z := main_arg0) (by decide)]
  generalize StableHlo.after (ops (F := Ideal)) _ ↑main_v26 = idx
  show _ = StableHlo.launchContents m c ↑main_arg0 _
  generalize StableHlo.launchContents m c ↑main_arg0 = x
  refine (Cert.LibRowsTake.gather_rowsTake_apply (N := 2097152) (R := 32768) (C := 3) (by decide)
    Facts₀.gather_S2097152x3_S32768x1_S32768x3_1_0_n_n_0_1_13_wf x _ b k).trans ?_
  have hw : broadcastInDim S32768x1 ![0] bcast_S32768_S32768x1_0 idx (ix2 b (0 : Fin 1)) = idx (ix1 b) :=
    broadcastInDim_apply (![0] : Fin 1 → Fin 2) bcast_S32768_S32768x1_0 idx (ix2 b (0 : Fin 1)) (ix1 b)
      (fun a => by match a with | ⟨0, _⟩ => rfl)
  refine congrArg x (congrArg (fun r : Fin 2097152 => ix2 r k) (Fin.ext ?_))
  show min (broadcastInDim S32768x1 ![0] bcast_S32768_S32768x1_0 idx (ix2 b (0 : Fin 1))).toInt.toNat (2097152 - 1)
    = min (idx (ix1 b)).toInt.toNat (2097152 - 1)
  rw [hw]

theorem v108_apply (b : Fin 32768) (j : Fin 8) (k : Fin 3) :
    ER m c ↑main_v108 (ix2 ⟨8 * b.val + j.val, by omega⟩ k)
      = m ((c.tc : Thread nD τ).loc main_arg2) (ix2 (clampRow 2048383 (by decide) (ER m c ↑main_v105 (ix2 b j))) k) := by
  unfold ER
  rw [at_ r14 14 _ (z := main_v108) (by decide), r14_v108, ← at_ r14 14 _ (z := main_v105) (by decide),
    ← at_ r14 14 _ (z := main_arg2) (by decide), unwritten _ (z := main_arg2) (by decide)]
  exact take8_apply (by decide) Facts₀.gather_S2048383x3_S32768x8x1_S32768x8x3_2_0_n_n_0_2_13_wf _ _ b j k

theorem v136_apply (b : Fin 32768) (j : Fin 8) (k : Fin 3) :
    ER m c ↑main_v136 (ix2 ⟨8 * b.val + j.val, by omega⟩ k)
      = m ((c.tc : Thread nD τ).loc main_arg0) (ix2 (clampRow 2097152 (by decide) (ER m c ↑main_v133 (ix2 b j))) k) := by
  unfold ER
  rw [at_ r14 14 _ (z := main_v136) (by decide), r14_v136, ← at_ r14 14 _ (z := main_v133) (by decide),
    ← at_ r14 14 _ (z := main_arg0) (by decide), unwritten _ (z := main_arg0) (by decide)]
  exact take8_apply (by decide) Facts₀.gather_S2097152x3_S32768x8x1_S32768x8x3_2_0_n_n_0_2_13_wf _ _ b j k

end Final

end Cert.ReferenceIdeal.Hand

end
-- ==== Proof.RTail.lean ====
import proofs.«412532_j62079457296719_3_alg».proof.Proof.ROps
import proofs.«412532_j62079457296719_3_alg».proof.Proof.RWrites
import proofs.«412532_j62079457296719_3_alg».proof.Proof.LibSeg
import Idealize.ShloMosaic.PureOps.Ideal

set_option maxRecDepth 4096

noncomputable section

namespace Cert.ReferenceIdeal.Hand

open Cert.ReferenceIdeal Cert.ReferenceIdeal.Gen
open Idealize.ShloMosaic Idealize.ShloMosaic.TcCoe Idealize.SL.Sem

def col (j : Nat) (x : FVec Ideal S32768x8 .f32) (h : S32768x8.Slices ![0, j] S32768x1 := by decide) : FVec Ideal S32768 .f32 :=
  shapeCast S32768 (extractStridedSlice S32768x1 ![0, j] x h) shapeCasts_S32768x1_S32768

abbrev c15 : FVec Ideal S32768 .f32 := broadcastInDim S32768 ![] bcast_S_S32768 (constant (F := Ideal) S_ .f32 0x3FC00000#32)

/-- `|pa + pb - sa - sb| / ((pa + pb + sa + sb) · 1.5)`: one axis of the discrete Laplacian. -/
def quot (pa pb sa sb : FVec Ideal S32768 .f32) : FVec Ideal S32768 .f32 :=
  Host.divf (Host.absf (subf (subf (addf pa pb) sa) sb)) (mulf (addf (addf (addf pa pb) sa) sb) c15)

def lap (ps pn : FVec Ideal S32768x8 .f32) : FVec Ideal S32768 .f32 :=
  addf (addf (quot (col 7 pn) (col 0 pn) (col 7 ps) (col 0 ps)) (quot (col 3 pn) (col 4 pn) (col 3 ps) (col 4 ps)))
    (quot (col 5 pn) (col 2 pn) (col 5 ps) (col 2 ps))

def idx12 (a12 : IVec S32768 32) : IVec S32768x1 32 :=
  broadcastInDim S32768x1 ![0] bcast_S32768_S32768x1_0 (select (cmpi .slt a12 (broadcastInDim S32768 ![] bcast_S_S32768 (constantI S_ 32 0#32)))
    (addi a12 (broadcastInDim S32768 ![] bcast_S_S32768 (constantI S_ 32 2097152#32))) a12)

/-- The mean absolute error of the prediction against the data at the centres. -/
def term1 (pred : FVec Ideal S32768 .f32) (a1 : FVec Ideal S2097152x1 .f32) (a12 : IVec S32768 32) : FVec Ideal S_ .f32 :=
  Host.divf (Host.reduceAdd (Host.absf (subf pred (shapeCast S32768
      (Host.gather gather_S2097152x1_S32768x1_S32768x1_1_0_n_n_0_1_11 a1 (idx12 a12)) shapeCasts_S32768x1_S32768)))
    (constant (F := Ideal) S_ .f32 0x00000000#32) reducesTo_S32768_S_d0 h_S_) (constant (F := Ideal) S_ .f32 0x47000000#32)

/-- The masked mean squared residual of the Laplacian `l` against the data at the centres. -/
def term2 (mask : FVec Ideal S32768 .f32) (a3 : FVec Ideal S2097152 .f32) (a12 : IVec S32768 32) (l : FVec Ideal S32768 .f32) :
    FVec Ideal S_ .f32 :=
  Host.divf (Host.reduceAdd (mulf mask (mulf (subf (Host.gather gather_S2097152_S32768x1_S32768_n_0_n_n_0_1_1 a3 (idx12 a12)) l)
      (subf (Host.gather gather_S2097152_S32768x1_S32768_n_0_n_n_0_1_1 a3 (idx12 a12)) l)))
    (constant (F := Ideal) S_ .f32 0x00000000#32) reducesTo_S32768_S_d0 h_S_)
    (maximumf (Host.reduceAdd mask (constant (F := Ideal) S_ .f32 0x00000000#32) reducesTo_S32768_S_d0 h_S_)
      (constant (F := Ideal) S_ .f32 0x3F800000#32))

def lossR (pred : FVec Ideal S32768 .f32) (ps pn : FVec Ideal S32768x8 .f32) (a1 : FVec Ideal S2097152x1 .f32)
    (a3 : FVec Ideal S2097152 .f32) (a12 : IVec S32768 32) (mask : FVec Ideal S32768 .f32) : FVec Ideal S_ .f32 :=
  addf (term1 pred a1 a12) (term2 mask a3 a12 (lap ps pn))

theorem r9_v60 (W : Valuation τ sig (Elt Ideal)) :
    StableHlo.after r9 W ↑main_v60 = term1 (StableHlo.after r9 W ↑main_v48) (W ↑main_arg1) (W ↑main_arg12) := by
  after_results_simp
  rfl

theorem r15_v193 (W : Valuation τ sig (Elt Ideal)) :
    StableHlo.after r15 W ↑main_v193 = addf (quot (col 7 (StableHlo.after r15 W ↑main_v156)) (col 0 (StableHlo.after r15 W ↑main_v156)) (col 7 (W ↑main_v128)) (col 0 (W ↑main_v128)))
      (quot (col 3 (StableHlo.after r15 W ↑main_v156)) (col 4 (StableHlo.after r15 W ↑main_v156)) (col 3 (W ↑main_v128)) (col 4 (W ↑main_v128))) := by
  after_results_simp
  rfl

theorem r15_v201 (W : Valuation τ sig (Elt Ideal)) : StableHlo.after r15 W ↑main_v201 = col 2 (W ↑main_v128) := by
  after_results_simp
  rfl

theorem r15_v205 (W : Valuation τ sig (Elt Ideal)) :
    StableHlo.after r15 W ↑main_v205 = Host.absf (subf (subf (addf (col 5 (StableHlo.after r15 W ↑main_v156)) (col 2 (StableHlo.after r15 W ↑main_v156))) (col 5 (W ↑main_v128))) (col 2 (W ↑main_v128))) := by
  after_results_simp
  rfl

theorem r15_v207 (W : Valuation τ sig (Elt Ideal)) :
    StableHlo.after r15 W ↑main_v207 = addf (addf (col 5 (StableHlo.after r15 W ↑main_v156)) (col 2 (StableHlo.after r15 W ↑main_v156))) (col 5 (W ↑main_v128)) := by
  after_results_simp
  rfl

theorem r16_v227 (W : Valuation τ sig (Elt Ideal)) :
    StableHlo.after r16 W ↑main_v227 = addf (W ↑main_v60) (term2 (W ↑main_v21) (W ↑main_arg3) (W ↑main_arg12)
      (addf (W ↑main_v193) (Host.divf (W ↑main_v205) (mulf (addf (W ↑main_v207) (W ↑main_v201)) c15)))) := by
  after_results_simp
  rfl

variable (m : (ℓ : Loc nD τ sig) → Buf (Elt Ideal) ℓ) (c : Dev nD)

/-- The last value is read back stretch by stretch to the three applications, the mask and the arguments. -/
theorem tail_eq : ER m c ↑main_v227 = lossR (ER m c ↑main_v48) (ER m c ↑main_v128) (ER m c ↑main_v156)
    (m ((c.tc : Thread nD τ).loc main_arg1)) (m ((c.tc : Thread nD τ).loc main_arg3)) (m ((c.tc : Thread nD τ).loc main_arg12))
    (ER m c ↑main_v21) := by
  unfold ER
  rw [at_ r16 16 _ (z := main_v227) (by decide), r16_v227,
    pre_ 16 _ (x := main_v207) (by decide), pre_ 16 _ (x := main_v201) (by decide), pre_ 16 _ (x := main_v205) (by decide),
    pre_ 16 _ (x := main_v193) (by decide), pre_ 16 _ (x := main_arg12) (by decide), pre_ 16 _ (x := main_arg3) (by decide),
    pre_ 16 _ (x := main_v21) (by decide), pre_ 16 _ (x := main_v60) (by decide),
    at_ r15 15 _ (z := main_v207) (by decide), r15_v207, at_ r15 15 _ (z := main_v201) (by decide), r15_v201,
    at_ r15 15 _ (z := main_v205) (by decide), r15_v205, at_ r15 15 _ (z := main_v193) (by decide), r15_v193,
    ← at_ r15 15 _ (z := main_v156) (by decide), pre_ 15 _ (x := main_v128) (by decide),
    at_ r9 9 _ (z := main_v60) (by decide), r9_v60, ← at_ r9 9 _ (z := main_v48) (by decide),
    pre_ 9 _ (x := main_arg1) (by decide), pre_ 9 _ (x := main_arg12) (by decide),
    unwritten _ (z := main_arg1) (by decide), unwritten _ (z := main_arg3) (by decide), unwritten _ (z := main_arg12) (by decide)]
  rfl

end Cert.ReferenceIdeal.Hand

end
-- ==== Proof.LinkA.lean ====
import proofs.«412532_j62079457296719_3_alg».proof.Proof.KIEntry
import proofs.«412532_j62079457296719_3_alg».proof.Proof.ROps
import proofs.«412532_j62079457296719_3_alg».proof.Proof.RWrites
import proofs.«412532_j62079457296719_3_alg».proof.Proof.LibSeg
import Idealize.ShloMosaic.PureOps.Ideal

set_option maxRecDepth 8192

noncomputable section

namespace Cert.Link

open Idealize.ShloMosaic Idealize.ShloMosaic.StableHlo Idealize.ShloMosaic.TcCoe
open Cert.ReferenceIdeal.Hand (r0 r1 r2 r3 r4 r5 r6 r7 r8 r9 r10 r11 r12 r13 r14 r15 r16 at_ pre_)
open Cert.KernelIdeal.Gen (hostOps0 hostOps0_1 hostOps0_2 hostOps0_3 hostOps0_4 hostOps0_5 hostOps0_6 hostOps0_7 hostOps0_8 hostOps0_9 hostOps0_10 hostOps0_11 hostOps0_12)

section KernelLine

open Cert.KernelIdeal Cert.KernelIdeal.Hand

variable {F : FTy → Type} [FloatOps F]

abbrev kwrs : List (List (Ref sig .tc)) :=
  [[main_c, main_c_0, main_c_1],
    [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v0],
    [main_c_2],
    [main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v1],
    [main_c_3],
    [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v2],
    [main_c_4],
    [main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v3],
    [main_c_5, main_v4, main_v5, main_c_6, main_v6, main_v7, main_v8, main_c_7, main_v9, main_v10, main_v11, main_c_8, main_v12, main_v13, main_v14, main_c_9, main_v15, main_v16, main_v17, main_c_10, main_v18, main_v19, main_v20, main_v21, main_v22, main_v23, main_v24, main_v25, main_v26, main_v27, main_v28, main_v29, main_v30, main_v31, main_v32, main_v33, main_v34, main_v35, main_v36, main_v37, main_c_11, main_v38, main_v39, main_v40, main_v41, main_c_12, main_v42, main_v43, main_v44, main_v45, main_v46, main_v47, main_c_13, main_c_14],
    [main_call4_v0, main_call4_v1, main_call4_v2, main_call4_v3, main_call4_v4, main_v48],
    [main_v49, main_v50, main_c_15, main_v51, main_v52, main_v53, main_v54, main_c_16, main_v55, main_v56, main_v57, main_v58, main_v59, main_v60, main_c_17, main_c_18],
    [main_call5_v0, main_call5_v1, main_call5_v2, main_call5_v3, main_call5_v4, main_v61],
    [main_v62, main_v63, main_c_19, main_v64, main_v65, main_c_20, main_v66, main_v67, main_v68, main_v69, main_v70, main_v71, main_c_21, main_v72, main_v73, main_c_22, main_v74, main_v75, main_v76, main_v77, main_v78, main_v79, main_v80, main_v81, main_v82, main_v83, main_v84, main_v85, main_v86, main_v87, main_v88, main_v89, main_v90]]

/-- The kernel program's stretches before the region write, one buffer an operation and in order, the listed references. -/
theorem preOps_writes : List.Forall₂ Cert.LibSeg.WritesIn (preOps (F := F)) kwrs := by
  repeat' first | exact .nil | refine .cons (Cert.LibSeg.writesIn_of_map rfl) ?_

theorem atK (s : List (HloOp τ sig (Elt F))) (k : Nat) (L : Valuation τ sig (Elt F)) {z : Ref sig .tc}
    (hz : z ∉ (kwrs.drop (k + 1)).flatten) (hs : (preOps (F := F)).getD k [] = s := by rfl) :
    after (List.flatten preOps) L (Proc.devRef .tc z) = after s (after (preOps.take k).flatten L) (Proc.devRef .tc z) :=
  Cert.LibSeg.at_seg preOps_writes s k L hz hs

theorem preK (k : Nat) (L : Valuation τ sig (Elt F)) {x : Ref sig .tc} (hx : x ∉ (kwrs.drop k).flatten) :
    after (preOps.take k).flatten L (Proc.devRef .tc x) = after (List.flatten preOps) L (Proc.devRef .tc x) :=
  Cert.LibSeg.at_pre preOps_writes k L hx

end KernelLine

section Stretches

variable {F : FTy → Type} [FloatOps F]
variable (W' : Valuation Cert.ReferenceIdeal.τ Cert.ReferenceIdeal.sig (Elt F)) (W : Valuation Cert.KernelIdeal.τ Cert.KernelIdeal.sig (Elt F))

theorem la_s0 : after (r0 (F := F)) W' ↑Cert.ReferenceIdeal.main_c_1 = after (hostOps0 (F := F)) W ↑Cert.KernelIdeal.main_c_1 := by
  after_results_simp <;> rfl

theorem la_s1 (h12 : W' ↑Cert.ReferenceIdeal.main_arg12 = W ↑Cert.KernelIdeal.main_arg12)
    (hc : W' ↑Cert.ReferenceIdeal.main_c_1 = W ↑Cert.KernelIdeal.main_c_1) :
    after (r1 (F := F)) W' ↑Cert.ReferenceIdeal.main_v0 = after (hostOps0_1 (F := F)) W ↑Cert.KernelIdeal.main_v0 := by
  after_results_simp
  simp only [TRef.ofBuf, TRef.toBuf, cast_eq]
  rw [h12, hc]

theorem la_s2 : after (r2 (F := F)) W' ↑Cert.ReferenceIdeal.main_c_2 = after (hostOps0_2 (F := F)) W ↑Cert.KernelIdeal.main_c_2 := by
  after_results_simp <;> rfl

theorem la_s3 (h12 : W' ↑Cert.ReferenceIdeal.main_arg12 = W ↑Cert.KernelIdeal.main_arg12)
    (hc : W' ↑Cert.ReferenceIdeal.main_c_2 = W ↑Cert.KernelIdeal.main_c_2) :
    after (r3 (F := F)) W' ↑Cert.ReferenceIdeal.main_v1 = after (hostOps0_3 (F := F)) W ↑Cert.KernelIdeal.main_v1 := by
  after_results_simp
  simp only [TRef.ofBuf, TRef.toBuf, cast_eq]
  rw [h12, hc]

theorem la_s4 : after (r4 (F := F)) W' ↑Cert.ReferenceIdeal.main_c_3 = after (hostOps0_4 (F := F)) W ↑Cert.KernelIdeal.main_c_3 := by
  after_results_simp <;> rfl

theorem la_s5 (h1 : W' ↑Cert.ReferenceIdeal.main_v1 = W ↑Cert.KernelIdeal.main_v1)
    (hc : W' ↑Cert.ReferenceIdeal.main_c_3 = W ↑Cert.KernelIdeal.main_c_3) :
    after (r5 (F := F)) W' ↑Cert.ReferenceIdeal.main_v2 = after (hostOps0_5 (F := F)) W ↑Cert.KernelIdeal.main_v2 := by
  after_results_simp
  simp only [TRef.ofBuf, TRef.toBuf, cast_eq]
  rw [h1, hc]

theorem la_s6 : after (r6 (F := F)) W' ↑Cert.ReferenceIdeal.main_c_4 = after (hostOps0_6 (F := F)) W ↑Cert.KernelIdeal.main_c_4 := by
  after_results_simp <;> rfl

theorem la_s7 (h12 : W' ↑Cert.ReferenceIdeal.main_arg12 = W ↑Cert.KernelIdeal.main_arg12)
    (hc : W' ↑Cert.ReferenceIdeal.main_c_4 = W ↑Cert.KernelIdeal.main_c_4) :
    after (r7 (F := F)) W' ↑Cert.ReferenceIdeal.main_v3 = after (hostOps0_7 (F := F)) W ↑Cert.KernelIdeal.main_v3 := by
  after_results_simp
  simp only [TRef.ofBuf, TRef.toBuf, cast_eq]
  rw [h12, hc]

theorem la_s8 (h0 : W' ↑Cert.ReferenceIdeal.main_v0 = W ↑Cert.KernelIdeal.main_v0)
    (h2 : W' ↑Cert.ReferenceIdeal.main_v2 = W ↑Cert.KernelIdeal.main_v2)
    (h3 : W' ↑Cert.ReferenceIdeal.main_v3 = W ↑Cert.KernelIdeal.main_v3) :
    after (r8 (F := F)) W' ↑Cert.ReferenceIdeal.main_v21 = after (hostOps0_8 (F := F)) W ↑Cert.KernelIdeal.main_v21 := by
  after_results_simp
  rw [h0, h2, h3]

end Stretches

section Links

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD) (c' : Dev Cert.ReferenceIdeal.nD)

local notation "XR" => StableHlo.launchContents m' c'
local notation "XK" => (fun b => m (c, b))

/-- Operands equal when both lines end are equal before stretch `kr` of the one and `kk` of the other. -/
local macro "lnk(" kr:term "," kk:term "," h:term ")" : term =>
  `((pre_ $kr XR (by decide)).trans (($h).trans (preK $kk XK (by decide)).symm))

theorem la_C1 : Cert.ReferenceIdeal.Hand.ER m' c' ↑Cert.ReferenceIdeal.main_c_1 = Cert.KernelIdeal.Hand.V m c Cert.KernelIdeal.main_c_1 :=
  (at_ r0 0 XR (by decide)).trans <| (la_s0 _ _).trans (atK hostOps0 0 XK (by decide)).symm

theorem la_C2 : Cert.ReferenceIdeal.Hand.ER m' c' ↑Cert.ReferenceIdeal.main_c_2 = Cert.KernelIdeal.Hand.V m c Cert.KernelIdeal.main_c_2 :=
  (at_ r2 2 XR (by decide)).trans <| (la_s2 _ _).trans (atK hostOps0_2 2 XK (by decide)).symm

theorem la_C3 : Cert.ReferenceIdeal.Hand.ER m' c' ↑Cert.ReferenceIdeal.main_c_3 = Cert.KernelIdeal.Hand.V m c Cert.KernelIdeal.main_c_3 :=
  (at_ r4 4 XR (by decide)).trans <| (la_s4 _ _).trans (atK hostOps0_4 4 XK (by decide)).symm

theorem la_C4 : Cert.ReferenceIdeal.Hand.ER m' c' ↑Cert.ReferenceIdeal.main_c_4 = Cert.KernelIdeal.Hand.V m c Cert.KernelIdeal.main_c_4 :=
  (at_ r6 6 XR (by decide)).trans <| (la_s6 _ _).trans (atK hostOps0_6 6 XK (by decide)).symm

variable (h12 : m' ((c'.tc : Thread Cert.ReferenceIdeal.nD Cert.ReferenceIdeal.τ).loc Cert.ReferenceIdeal.main_arg12)
  = m ((c.tc : Thread Cert.KernelIdeal.nD Cert.KernelIdeal.τ).loc Cert.KernelIdeal.main_arg12))
include h12

theorem la_A12 : Cert.ReferenceIdeal.Hand.ER m' c' ↑Cert.ReferenceIdeal.main_arg12 = Cert.KernelIdeal.Hand.V m c Cert.KernelIdeal.main_arg12 :=
  (pre_ 0 XR (by decide)).symm.trans <| h12.trans (preK 0 XK (by decide))

theorem L0 : Cert.ReferenceIdeal.Hand.ER m' c' ↑Cert.ReferenceIdeal.main_v0 = Cert.KernelIdeal.Hand.V m c Cert.KernelIdeal.main_v0 :=
  (at_ r1 1 XR (by decide)).trans <| (la_s1 _ _ lnk(1, 1, la_A12 m m' c c' h12) lnk(1, 1, la_C1 m m' c c')).trans
    (atK hostOps0_1 1 XK (by decide)).symm

theorem L1 : Cert.ReferenceIdeal.Hand.ER m' c' ↑Cert.ReferenceIdeal.main_v1 = Cert.KernelIdeal.Hand.V m c Cert.KernelIdeal.main_v1 :=
  (at_ r3 3 XR (by decide)).trans <| (la_s3 _ _ lnk(3, 3, la_A12 m m' c c' h12) lnk(3, 3, la_C2 m m' c c')).trans
    (atK hostOps0_3 3 XK (by decide)).symm

theorem L2 : Cert.ReferenceIdeal.Hand.ER m' c' ↑Cert.ReferenceIdeal.main_v2 = Cert.KernelIdeal.Hand.V m c Cert.KernelIdeal.main_v2 :=
  (at_ r5 5 XR (by decide)).trans <| (la_s5 _ _ lnk(5, 5, L1 m m' c c' h12) lnk(5, 5, la_C3 m m' c c')).trans
    (atK hostOps0_5 5 XK (by decide)).symm

theorem L3 : Cert.ReferenceIdeal.Hand.ER m' c' ↑Cert.ReferenceIdeal.main_v3 = Cert.KernelIdeal.Hand.V m c Cert.KernelIdeal.main_v3 :=
  (at_ r7 7 XR (by decide)).trans <| (la_s7 _ _ lnk(7, 7, la_A12 m m' c c' h12) lnk(7, 7, la_C4 m m' c c')).trans
    (atK hostOps0_7 7 XK (by decide)).symm

theorem L21 : Cert.ReferenceIdeal.Hand.ER m' c' ↑Cert.ReferenceIdeal.main_v21 = Cert.KernelIdeal.Hand.V m c Cert.KernelIdeal.main_v21 :=
  (at_ r8 8 XR (by decide)).trans <| (la_s8 _ _ lnk(8, 8, L0 m m' c c' h12) lnk(8, 8, L2 m m' c c' h12) lnk(8, 8, L3 m m' c c' h12)).trans
    (atK hostOps0_8 8 XK (by decide)).symm

end Links

end Cert.Link

end
-- ==== Proof.LinkB.lean ====
import proofs.«412532_j62079457296719_3_alg».proof.Proof.KIEntry
import proofs.«412532_j62079457296719_3_alg».proof.Proof.ROps
import proofs.«412532_j62079457296719_3_alg».proof.Proof.LibSeg
import proofs.«412532_j62079457296719_3_alg».proof.Proof.RWrites
import proofs.«412532_j62079457296719_3_alg».proof.Proof.LinkA
import proofs.«412532_j62079457296719_3_alg».proof.Proof.KIAround
import Idealize.ShloMosaic.Lib.ValueIdx
import Idealize.ShloMosaic.PureOps.Ideal
import Idealize.ShloMosaic.Lib.Pipeline.Value

set_option maxRecDepth 4096

noncomputable section

namespace Cert.Link

open Idealize.ShloMosaic Idealize.ShloMosaic.TcCoe Idealize.ShloMosaic.StableHlo Idealize.ShloMosaic.ValueIdx

section Nary3
variable {τ : Topo} {sig : RefSig} {Val : EltTy → Type} {x a b y : Ref sig .tc}

theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F
end Nary3

macro "line_pass" : tactic =>
  `(tactic| (simp (disch := decide) only [List.take_succ_cons, List.take_zero, List.drop_succ_cons, List.drop_zero,
      after_cons, after_nil,
      nullary_result', unary_result', binary_result', ternary_result', reshape_result', nary3_result',
      nullary_result_ne', unary_result_ne', binary_result_ne', ternary_result_ne', reshape_result_ne', nary_result_ne']))

local notation "𝕜" => Proc.devRef (τ := Cert.KernelIdeal.τ) (sig := Cert.KernelIdeal.sig) Proc.tc
local notation "𝕣" => Proc.devRef (τ := Cert.ReferenceIdeal.τ) (sig := Cert.ReferenceIdeal.sig) Proc.tc

abbrev KV (F : FTy → Type) := Valuation Cert.KernelIdeal.τ Cert.KernelIdeal.sig (Elt F)
abbrev RV (F : FTy → Type) := Valuation Cert.ReferenceIdeal.τ Cert.ReferenceIdeal.sig (Elt F)

section Links
variable {F : FTy → Type} [FloatOps F] (W : KV F) (W' : RV F)

open Cert.KernelIdeal.Gen Cert.ReferenceIdeal.Hand

theorem a22 (e0 : W' (𝕣 ReferenceIdeal.main_v0) = W (𝕜 KernelIdeal.main_v0)) :
    after (r9.take 22) W' (𝕣 ReferenceIdeal.main_v61) = after (hostOps0_8.take 27) W (𝕜 KernelIdeal.main_v22) := by
  line_pass
  rw [e0]

theorem a23 (e2 : W' (𝕣 ReferenceIdeal.main_v2) = W (𝕜 KernelIdeal.main_v2)) :
    after (r9.take 22) W' (𝕣 ReferenceIdeal.main_v62) = after (hostOps0_8.take 27) W (𝕜 KernelIdeal.main_v23) := by
  line_pass
  rw [e2]

theorem a24 (e3 : W' (𝕣 ReferenceIdeal.main_v3) = W (𝕜 KernelIdeal.main_v3)) :
    after (r9.take 22) W' (𝕣 ReferenceIdeal.main_v63) = after (hostOps0_8.take 27) W (𝕜 KernelIdeal.main_v24) := by
  line_pass
  rw [e3]

theorem ac (ec : W' (𝕣 ReferenceIdeal.main_c) = W (𝕜 KernelIdeal.main_c)) :
    after (r9.take 22) W' (𝕣 ReferenceIdeal.main_c) = after (hostOps0_8.take 27) W (𝕜 KernelIdeal.main_c) := by
  line_pass
  exact ec

theorem ac0 (ec : W' (𝕣 ReferenceIdeal.main_c_0) = W (𝕜 KernelIdeal.main_c_0)) :
    after (r9.take 22) W' (𝕣 ReferenceIdeal.main_c_0) = after (hostOps0_8.take 27) W (𝕜 KernelIdeal.main_c_0) := by
  line_pass
  exact ec

theorem b47 (e22 : W' (𝕣 ReferenceIdeal.main_v61) = W (𝕜 KernelIdeal.main_v22))
    (e23 : W' (𝕣 ReferenceIdeal.main_v62) = W (𝕜 KernelIdeal.main_v23))
    (e24 : W' (𝕣 ReferenceIdeal.main_v63) = W (𝕜 KernelIdeal.main_v24))
    (ec : W' (𝕣 ReferenceIdeal.main_c) = W (𝕜 KernelIdeal.main_c)) :
    after (r9.drop 22) W' (𝕣 ReferenceIdeal.main_v86) = after (hostOps0_8.drop 27) W (𝕜 KernelIdeal.main_v47) := by
  line_pass
  rw [e22, e23, e24, ec]
  rfl

theorem b35 (e22 : W' (𝕣 ReferenceIdeal.main_v61) = W (𝕜 KernelIdeal.main_v22))
    (e23 : W' (𝕣 ReferenceIdeal.main_v62) = W (𝕜 KernelIdeal.main_v23))
    (e24 : W' (𝕣 ReferenceIdeal.main_v63) = W (𝕜 KernelIdeal.main_v24))
    (ec : W' (𝕣 ReferenceIdeal.main_c_0) = W (𝕜 KernelIdeal.main_c_0)) :
    after (r9.drop 22) W' (𝕣 ReferenceIdeal.main_v74) = after (hostOps0_8.drop 27) W (𝕜 KernelIdeal.main_v35) := by
  line_pass
  rw [e22, e23, e24, ec]
  rfl

theorem s8_v47 (e0 : W' (𝕣 ReferenceIdeal.main_v0) = W (𝕜 KernelIdeal.main_v0))
    (e2 : W' (𝕣 ReferenceIdeal.main_v2) = W (𝕜 KernelIdeal.main_v2))
    (e3 : W' (𝕣 ReferenceIdeal.main_v3) = W (𝕜 KernelIdeal.main_v3))
    (ec : W' (𝕣 ReferenceIdeal.main_c) = W (𝕜 KernelIdeal.main_c)) :
    after r9 W' (𝕣 ReferenceIdeal.main_v86) = after hostOps0_8 W (𝕜 KernelIdeal.main_v47) := by
  rw [Cert.LibSeg.after_cut 22 r9, Cert.LibSeg.after_cut 27 hostOps0_8]
  exact b47 _ _ (a22 W W' e0) (a23 W W' e2) (a24 W W' e3) (ac W W' ec)

theorem s8_v35 (e0 : W' (𝕣 ReferenceIdeal.main_v0) = W (𝕜 KernelIdeal.main_v0))
    (e2 : W' (𝕣 ReferenceIdeal.main_v2) = W (𝕜 KernelIdeal.main_v2))
    (e3 : W' (𝕣 ReferenceIdeal.main_v3) = W (𝕜 KernelIdeal.main_v3))
    (ec : W' (𝕣 ReferenceIdeal.main_c_0) = W (𝕜 KernelIdeal.main_c_0)) :
    after r9 W' (𝕣 ReferenceIdeal.main_v74) = after hostOps0_8 W (𝕜 KernelIdeal.main_v35) := by
  rw [Cert.LibSeg.after_cut 22 r9, Cert.LibSeg.after_cut 27 hostOps0_8]
  exact b35 _ _ (a22 W W' e0) (a23 W W' e2) (a24 W W' e3) (ac0 W W' ec)

theorem s0_c : after r0 W' (𝕣 ReferenceIdeal.main_c) = after hostOps0 W (𝕜 KernelIdeal.main_c) := by
  line_pass
  rfl

theorem s0_c0 : after r0 W' (𝕣 ReferenceIdeal.main_c_0) = after hostOps0 W (𝕜 KernelIdeal.main_c_0) := by
  line_pass
  rfl

theorem s8_lo : after r9 W' (𝕣 ReferenceIdeal.main_c_18) = after hostOps0_8 W (𝕜 KernelIdeal.main_c_13) := by
  line_pass

theorem s8_hi : after r9 W' (𝕣 ReferenceIdeal.main_c_19) = after hostOps0_8 W (𝕜 KernelIdeal.main_c_14) := by
  line_pass

theorem s9 (e : W' (𝕣 ReferenceIdeal.main_v86) = W (𝕜 KernelIdeal.main_v47))
    (elo : W' (𝕣 ReferenceIdeal.main_c_18) = W (𝕜 KernelIdeal.main_c_13))
    (ehi : W' (𝕣 ReferenceIdeal.main_c_19) = W (𝕜 KernelIdeal.main_c_14)) :
    after r10 W' (𝕣 ReferenceIdeal.main_v87) = after hostOps0_9 W (𝕜 KernelIdeal.main_v48) := by
  line_pass
  rw [e, elo, ehi]

theorem s10_v60 (e : W' (𝕣 ReferenceIdeal.main_v74) = W (𝕜 KernelIdeal.main_v35)) :
    after r12 (after r11 W') (𝕣 ReferenceIdeal.main_v99) = after hostOps0_10 W (𝕜 KernelIdeal.main_v60) := by
  line_pass
  rw [e]
  rfl

theorem s10_lo : after r12 (after r11 W') (𝕣 ReferenceIdeal.main_c_22) = after hostOps0_10 W (𝕜 KernelIdeal.main_c_17) := by
  line_pass

theorem s10_hi : after r12 (after r11 W') (𝕣 ReferenceIdeal.main_c_23) = after hostOps0_10 W (𝕜 KernelIdeal.main_c_18) := by
  line_pass

theorem s11 (e : W' (𝕣 ReferenceIdeal.main_v99) = W (𝕜 KernelIdeal.main_v60))
    (elo : W' (𝕣 ReferenceIdeal.main_c_22) = W (𝕜 KernelIdeal.main_c_17))
    (ehi : W' (𝕣 ReferenceIdeal.main_c_23) = W (𝕜 KernelIdeal.main_c_18)) :
    after r13 W' (𝕣 ReferenceIdeal.main_v100) = after hostOps0_11 W (𝕜 KernelIdeal.main_v61) := by
  line_pass
  rw [e, elo, ehi]

end Links

def normWord (N x : BitVec 32) : BitVec 32 := Scalar.select (IntOp.cmpi .slt x 0#32) (IntOp.addi x N) x

theorem norm_apply {s : Shape} (h : Shape.BroadcastsInDim ⟨0, ![]⟩ s ![]) (N : BitVec 32) (X : IVec s 32) (j : s.Idx) :
    select (cmpi .slt X (broadcastInDim s ![] h (constantI ⟨0, ![]⟩ 32 0#32)))
      (addi X (broadcastInDim s ![] h (constantI ⟨0, ![]⟩ 32 N))) X j = normWord N (X j) := rfl

section Words
variable {F : FTy → Type} [FloatOps F] (W : KV F) (W' : RV F)

open Cert.KernelIdeal.Gen Cert.ReferenceIdeal.Hand

theorem r8_v26 (b : Fin 32768) :
    after r8 W' (𝕣 ReferenceIdeal.main_v26) (ix1 b) = normWord 2097152#32 (W' (𝕣 ReferenceIdeal.main_arg12) (ix1 b)) := by
  line_pass
  rfl

theorem r14_v105 (b : Fin 32768) (j : Fin 8) :
    after r14 W' (𝕣 ReferenceIdeal.main_v105) (ix2 b j) = normWord 2048383#32 (W' (𝕣 ReferenceIdeal.main_v87) (ix2 b j)) := by
  line_pass
  rfl

theorem r14_v133 (b : Fin 32768) (j : Fin 8) :
    after r14 W' (𝕣 ReferenceIdeal.main_v133) (ix2 b j) = normWord 2097152#32 (W' (𝕣 ReferenceIdeal.main_v100) (ix2 b j)) := by
  line_pass
  rfl

theorem flat8_apply {α : Type} (x : (⟨2, ![32768, 8]⟩ : Shape).Idx → α) (h : Shape.ShapeCasts ⟨2, ![32768, 8]⟩ ⟨1, ![262144]⟩)
    (b : Fin 32768) (j : Fin 8) (hb : 8 * b.val + j.val < 262144) :
    shapeCast ⟨1, ![262144]⟩ x h (ix1 ⟨8 * b.val + j.val, hb⟩) = x (ix2 b j) := by
  refine shapeCast_apply x h _ (ix2 b j) ?_
  rw [Shape.rowMajor_val_two, Shape.rowMajor_val_one]
  show b.val * 8 + j.val = 8 * b.val + j.val
  omega

theorem k12_v76 (b : Fin 32768) (j : Fin 8) :
    after hostOps0_12 W (𝕜 KernelIdeal.main_v76) (ix1 ⟨8 * b.val + j.val, by omega⟩)
      = normWord 2048383#32 (W (𝕜 KernelIdeal.main_v48) (ix2 b j)) := by
  line_pass
  refine (norm_apply _ _ _ _).trans (congrArg _ ?_)
  exact flat8_apply _ _ b j _

end Words

section Words2
variable {F : FTy → Type} [FloatOps F] (W : KV F)

open Cert.KernelIdeal.Gen

theorem k12_v68_lo (b : Fin 32768) :
    after hostOps0_12 W (𝕜 KernelIdeal.main_v68) (ix1 ⟨b.val, by omega⟩)
      = normWord 2097152#32 (W (𝕜 KernelIdeal.main_arg12) (ix1 b)) := by
  line_pass
  rw [reshape_result_ne _ _ _ _ _ _ _ (show KernelIdeal.main_arg12 ≠ KernelIdeal.main_v62 by decide), reshape_result]
  refine (norm_apply _ _ _ _).trans (congrArg _ ?_)
  refine concatenate_pair_apply_left (t := KernelIdeal.S294912) (s₁ := KernelIdeal.S32768) (s₂ := KernelIdeal.S262144) _ _ _ _ _ rfl (ix1 b) ?_
  intro b'
  match b' with
  | ⟨0, _⟩ => rfl

theorem k12_v68_hi (b : Fin 32768) (j : Fin 8) :
    after hostOps0_12 W (𝕜 KernelIdeal.main_v68) (ix1 ⟨32768 + (8 * b.val + j.val), by omega⟩)
      = normWord 2097152#32 (W (𝕜 KernelIdeal.main_v61) (ix2 b j)) := by
  line_pass
  rw [reshape_result_ne _ _ _ _ _ _ _ (show KernelIdeal.main_arg12 ≠ KernelIdeal.main_v62 by decide), reshape_result]
  refine (norm_apply _ _ _ _).trans (congrArg _ ?_)
  refine (concatenate_pair_apply_right (t := KernelIdeal.S294912) (s₁ := KernelIdeal.S32768) (s₂ := KernelIdeal.S262144) _ _ _ _ _ rfl rfl
    (ix1 (⟨8 * b.val + j.val, by omega⟩ : Fin 262144)) ?_ ?_).trans ?_
  · intro b' hb
    match b', hb with
    | ⟨0, _⟩, hb => exact absurd rfl hb
  · show 8 * b.val + j.val + 32768 = 32768 + (8 * b.val + j.val)
    omega
  · exact flat8_apply _ _ b j _

end Words2

section Final
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD) (c' : Dev Cert.ReferenceIdeal.nD)

open Cert.KernelIdeal.Hand Cert.ReferenceIdeal.Hand Cert.KernelIdeal.Gen

local notation "LK" => (fun b => m (c, b))
local notation "LR" => StableHlo.launchContents m' c'

local macro "lnk(" kr:term "," kk:term "," h:term ")" : term =>
  `((pre_ $kr LR (by decide)).trans (($h).trans (preK $kk LK (by decide)).symm))

theorem Lc :
    ER m' c' (𝕣 ReferenceIdeal.main_c) = V m c KernelIdeal.main_c :=
  (at_ r0 0 LR (by decide)).trans <| (s0_c _ _).trans (atK hostOps0 0 LK (by decide)).symm

theorem Lc0 :
    ER m' c' (𝕣 ReferenceIdeal.main_c_0) = V m c KernelIdeal.main_c_0 :=
  (at_ r0 0 LR (by decide)).trans <| (s0_c0 _ _).trans (atK hostOps0 0 LK (by decide)).symm

theorem Llo1 :
    ER m' c' (𝕣 ReferenceIdeal.main_c_18) = V m c KernelIdeal.main_c_13 :=
  (at_ r9 9 LR (by decide)).trans <| (s8_lo _ _).trans (atK hostOps0_8 8 LK (by decide)).symm

theorem Lhi1 :
    ER m' c' (𝕣 ReferenceIdeal.main_c_19) = V m c KernelIdeal.main_c_14 :=
  (at_ r9 9 LR (by decide)).trans <| (s8_hi _ _).trans (atK hostOps0_8 8 LK (by decide)).symm

theorem Llo2 :
    ER m' c' (𝕣 ReferenceIdeal.main_c_22) = V m c KernelIdeal.main_c_17 := by
  refine (at_ r12 12 LR (z := ReferenceIdeal.main_c_22) (by decide)).trans (Eq.trans ?_ (atK hostOps0_10 10 LK (z := KernelIdeal.main_c_17) (by decide)).symm)
  rw [Cert.LibSeg.after_take_succ segs r11 11]
  exact s10_lo _ _

theorem Lhi2 :
    ER m' c' (𝕣 ReferenceIdeal.main_c_23) = V m c KernelIdeal.main_c_18 := by
  refine (at_ r12 12 LR (z := ReferenceIdeal.main_c_23) (by decide)).trans (Eq.trans ?_ (atK hostOps0_10 10 LK (z := KernelIdeal.main_c_18) (by decide)).symm)
  rw [Cert.LibSeg.after_take_succ segs r11 11]
  exact s10_hi _ _

theorem L68_lo (h12 : m' ((c'.tc : Thread Cert.ReferenceIdeal.nD Cert.ReferenceIdeal.τ).loc ReferenceIdeal.main_arg12)
      = m ((c.tc : Thread Cert.KernelIdeal.nD Cert.KernelIdeal.τ).loc KernelIdeal.main_arg12))
    (b : Fin 32768) :
    V m c KernelIdeal.main_v68 (ix1 ⟨b.val, by omega⟩) = ER m' c' (𝕣 ReferenceIdeal.main_v26) (ix1 b) := by
  show after (List.flatten preOps) LK (𝕜 KernelIdeal.main_v68) _ = after ops LR (𝕣 ReferenceIdeal.main_v26) _
  rw [atK hostOps0_12 12 LK (z := KernelIdeal.main_v68) (by decide), at_ r8 8 LR (z := ReferenceIdeal.main_v26) (by decide),
    k12_v68_lo, r8_v26, lnk(8, 12, la_A12 m m' c c' h12)]

variable (h0 : ER m' c' (𝕣 ReferenceIdeal.main_v0) = V m c KernelIdeal.main_v0)
  (h2 : ER m' c' (𝕣 ReferenceIdeal.main_v2) = V m c KernelIdeal.main_v2)
  (h3 : ER m' c' (𝕣 ReferenceIdeal.main_v3) = V m c KernelIdeal.main_v3)
include h0 h2 h3

theorem L47 :
    ER m' c' (𝕣 ReferenceIdeal.main_v86) = V m c KernelIdeal.main_v47 :=
  (at_ r9 9 LR (by decide)).trans <| (s8_v47 _ _ lnk(9, 8, h0) lnk(9, 8, h2) lnk(9, 8, h3) lnk(9, 8, Lc m m' c c')).trans (atK hostOps0_8 8 LK (by decide)).symm

theorem L35 :
    ER m' c' (𝕣 ReferenceIdeal.main_v74) = V m c KernelIdeal.main_v35 :=
  (at_ r9 9 LR (by decide)).trans <| (s8_v35 _ _ lnk(9, 8, h0) lnk(9, 8, h2) lnk(9, 8, h3) lnk(9, 8, Lc0 m m' c c')).trans (atK hostOps0_8 8 LK (by decide)).symm

theorem L48 :
    ER m' c' (𝕣 ReferenceIdeal.main_v87) = V m c KernelIdeal.main_v48 :=
  (at_ r10 10 LR (by decide)).trans <| (s9 _ _ lnk(10, 9, L47 m m' c c' h0 h2 h3) lnk(10, 9, Llo1 m m' c c') lnk(10, 9, Lhi1 m m' c c')).trans (atK hostOps0_9 9 LK (by decide)).symm

theorem L60 :
    ER m' c' (𝕣 ReferenceIdeal.main_v99) = V m c KernelIdeal.main_v60 := by
  refine (at_ r12 12 LR (z := ReferenceIdeal.main_v99) (by decide)).trans (Eq.trans ?_ (atK hostOps0_10 10 LK (z := KernelIdeal.main_v60) (by decide)).symm)
  rw [Cert.LibSeg.after_take_succ segs r11 11]
  exact s10_v60 _ _ lnk(11, 10, L35 m m' c c' h0 h2 h3)

theorem L61 :
    ER m' c' (𝕣 ReferenceIdeal.main_v100) = V m c KernelIdeal.main_v61 :=
  (at_ r13 13 LR (by decide)).trans <| (s11 _ _ lnk(13, 11, L60 m m' c c' h0 h2 h3) lnk(13, 11, Llo2 m m' c c') lnk(13, 11, Lhi2 m m' c c')).trans (atK hostOps0_11 11 LK (by decide)).symm

theorem L76 (b : Fin 32768) (j : Fin 8) :
    V m c KernelIdeal.main_v76 (ix1 ⟨8 * b.val + j.val, by omega⟩) = ER m' c' (𝕣 ReferenceIdeal.main_v105) (ix2 b j) := by
  show after (List.flatten preOps) LK (𝕜 KernelIdeal.main_v76) _ = after ops LR (𝕣 ReferenceIdeal.main_v105) _
  rw [atK hostOps0_12 12 LK (z := KernelIdeal.main_v76) (by decide), at_ r14 14 LR (z := ReferenceIdeal.main_v105) (by decide),
    k12_v76, r14_v105, lnk(14, 12, L48 m m' c c' h0 h2 h3)]

theorem L68_hi (b : Fin 32768) (j : Fin 8) :
    V m c KernelIdeal.main_v68 (ix1 ⟨32768 + (8 * b.val + j.val), by omega⟩) = ER m' c' (𝕣 ReferenceIdeal.main_v133) (ix2 b j) := by
  show after (List.flatten preOps) LK (𝕜 KernelIdeal.main_v68) _ = after ops LR (𝕣 ReferenceIdeal.main_v133) _
  rw [atK hostOps0_12 12 LK (z := KernelIdeal.main_v68) (by decide), at_ r14 14 LR (z := ReferenceIdeal.main_v133) (by decide),
    k12_v68_hi, r14_v133, lnk(14, 12, L61 m m' c c' h0 h2 h3)]

end Final

end Cert.Link

end
-- ==== Proof.Bridge.lean ====
import proofs.«412532_j62079457296719_3_alg».proof.Proof.Spec
import proofs.«412532_j62079457296719_3_alg».proof.Proof.KIPayload
import proofs.«412532_j62079457296719_3_alg».proof.Proof.KIArray
import proofs.«412532_j62079457296719_3_alg».proof.Proof.KIEntryVals
import proofs.«412532_j62079457296719_3_alg».proof.Proof.KIAround
import proofs.«412532_j62079457296719_3_alg».proof.Proof.KITail
import proofs.«412532_j62079457296719_3_alg».proof.Proof.RMlp
import proofs.«412532_j62079457296719_3_alg».proof.Proof.RGather
import proofs.«412532_j62079457296719_3_alg».proof.Proof.RTail
import proofs.«412532_j62079457296719_3_alg».proof.Proof.LinkA
import proofs.«412532_j62079457296719_3_alg».proof.Proof.LinkB

noncomputable section

namespace Cert.Bridge

open Idealize.ShloMosaic Idealize.ShloMosaic.TcCoe Idealize.ShloMosaic.ValueIdx Idealize.SL.Sem
open Cert.Spec

variable (m : (ℓ : Loc Cert.KernelIdeal.nD Cert.KernelIdeal.τ Cert.KernelIdeal.sig) → Buf (Elt Ideal) ℓ)
variable (c : Dev Cert.KernelIdeal.nD)

abbrev outK : FVec Ideal Cert.KernelIdeal.S1x557056 .f32 :=
  ((Cert.KernelIdeal.Hand.dats m 0 c).arrAt 9 Cert.KernelIdeal.cfg0.N : FVec Ideal Cert.KernelIdeal.S1x557056 .f32)

abbrev mlpK : (Fin 3 → EReal) → EReal :=
  mlp (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))

theorem out_col (n : Fin 557056) :
    outK m c (ix2 (0 : Fin 1) n) = mlpK m c (fun k => Cert.KernelIdeal.Hand.V m c Cert.KernelIdeal.main_v82 (ix2 k n)) := by
  have hN : Cert.KernelIdeal.cfg0.N = 64 := Cert.KernelIdeal.Gen.N_0
  have hn := n.isLt
  have hdiv : n.val / 8704 < Cert.KernelIdeal.cfg0.N := by rw [hN]; omega
  have hmod : n.val % 8704 < 8704 := Nat.mod_lt _ (by decide)
  obtain ⟨t, ht⟩ : ∃ t : Fin Cert.KernelIdeal.cfg0.N, t.val = n.val / 8704 := ⟨⟨_, hdiv⟩, rfl⟩
  obtain ⟨y, hy⟩ : ∃ y : Fin 8704, y.val = n.val % 8704 := ⟨⟨_, hmod⟩, rfl⟩
  have hcol : n = ⟨8704 * t.val + y.val, Cert.KernelIdeal.Hand.arr_col_lt t y⟩ := Fin.ext (by show n.val = 8704 * t.val + y.val; omega)
  rw [hcol]
  refine (Cert.KernelIdeal.Hand.arr9_apply m c t y).trans ?_
  rw [Cert.KernelIdeal.Hand.pay_apply]
  refine (mlpT_eq_mlp _ _ _ _ _ _ _ _
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    ?_ ?_ ?_ ?_ ?_ ?_ ?_ ?_ _).trans ?_
  · intro j k; rw [Cert.KernelIdeal.Hand.iblk1_eq m c t j k, Cert.KernelIdeal.Hand.v83_apply m c j k]
  · intro j; rw [Cert.KernelIdeal.Hand.iblk2_eq m c t j 0, Cert.KernelIdeal.Hand.v87_apply m c j]
  · intro j k; rw [Cert.KernelIdeal.Hand.iblk3_eq m c t j k, Cert.KernelIdeal.Hand.v84_apply m c j k]
  · intro j; rw [Cert.KernelIdeal.Hand.iblk4_eq m c t j 0, Cert.KernelIdeal.Hand.v88_apply m c j]
  · intro j k; rw [Cert.KernelIdeal.Hand.iblk5_eq m c t j k, Cert.KernelIdeal.Hand.v85_apply m c j k]
  · intro j; rw [Cert.KernelIdeal.Hand.iblk6_eq m c t j 0, Cert.KernelIdeal.Hand.v89_apply m c j]
  · intro k; rw [Cert.KernelIdeal.Hand.iblk7_eq m c t 0 k, Cert.KernelIdeal.Hand.v86_apply m c k]
  · rw [Cert.KernelIdeal.Hand.iblk8_eq m c t 0 0, Cert.KernelIdeal.Hand.v90_apply m c]
  · congr 1
    funext k
    exact Cert.KernelIdeal.Hand.iblk0_apply m c t k y

variable (m' : (ℓ : Loc Cert.ReferenceIdeal.nD Cert.ReferenceIdeal.τ Cert.ReferenceIdeal.sig) → Buf (Elt Ideal) ℓ)

abbrev Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)

theorem mlp_agree (hag : Agree m c m') (x : Fin 3 → EReal) :
    mlp (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11)) x = mlpK m c x := by
  obtain ⟨a0, a1, a2, a3, a4, a5, a6, a7, a8, a9, a10, a11, a12⟩ := hag
  rw [a4, a5, a6, a7, a8, a9, a10, a11]

theorem pred_eq (hag : Agree m c m') (b : Fin 32768) :
    Cert.ReferenceIdeal.Hand.ER m' c (Proc.devRef .tc Cert.ReferenceIdeal.main_v48) (ix1 b) = Cert.KernelIdeal.Hand.predK (outK m c) (ix1 b) := by
  obtain ⟨a0, a1, a2, a3, a4, a5, a6, a7, a8, a9, a10, a11, a12⟩ := id hag
  have hb := b.isLt
  rw [Cert.ReferenceIdeal.Hand.v48_apply m' c b, Cert.KernelIdeal.Hand.predK_apply (outK m c) b, out_col m c, mlp_agree m c m' hag]
  congr 1
  funext k
  rw [Cert.ReferenceIdeal.Hand.v28_apply m' c b k, a0,
    Cert.KernelIdeal.Hand.ev_v82_lo m c ⟨b.val, by omega⟩ k b.val hb (by omega) (Nat.zero_add _),
    Cert.KernelIdeal.Hand.v70_apply m c ⟨b.val, by omega⟩ k, Cert.Link.L68_lo m m' c c a12 b]

theorem ps_eq (hag : Agree m c m') (b : Fin 32768) (j : Fin 8) :
    Cert.ReferenceIdeal.Hand.ER m' c (Proc.devRef .tc Cert.ReferenceIdeal.main_v128) (ix2 b j) = Cert.KernelIdeal.Hand.psK (outK m c) (ix2 b j) := by
  obtain ⟨a0, a1, a2, a3, a4, a5, a6, a7, a8, a9, a10, a11, a12⟩ := id hag
  have hb := b.isLt
  have hj := j.isLt
  have h0 := Cert.Link.L0 m m' c c a12
  have h2 := Cert.Link.L2 m m' c c a12
  have h3 := Cert.Link.L3 m m' c c a12
  rw [Cert.ReferenceIdeal.Hand.v128_apply m' c b j, Cert.KernelIdeal.Hand.psK_apply (outK m c) b j, out_col m c, mlp_agree m c m' hag]
  congr 1
  funext k
  rw [Cert.ReferenceIdeal.Hand.v108_apply m' c b j k, a2,
    Cert.KernelIdeal.Hand.ev_v82_mid m c ⟨32768 + (8 * b.val + j.val), by omega⟩ k (8 * b.val + j.val) (by omega) rfl,
    Cert.KernelIdeal.Hand.v78_apply m c ⟨8 * b.val + j.val, by omega⟩ k, Cert.Link.L76 m m' c c h0 h2 h3 b j]

theorem pn_eq (hag : Agree m c m') (b : Fin 32768) (j : Fin 8) :
    Cert.ReferenceIdeal.Hand.ER m' c (Proc.devRef .tc Cert.ReferenceIdeal.main_v156) (ix2 b j) = Cert.KernelIdeal.Hand.pnK (outK m c) (ix2 b j) := by
  obtain ⟨a0, a1, a2, a3, a4, a5, a6, a7, a8, a9, a10, a11, a12⟩ := id hag
  have hb := b.isLt
  have hj := j.isLt
  have h0 := Cert.Link.L0 m m' c c a12
  have h2 := Cert.Link.L2 m m' c c a12
  have h3 := Cert.Link.L3 m m' c c a12
  rw [Cert.ReferenceIdeal.Hand.v156_apply m' c b j, Cert.KernelIdeal.Hand.pnK_apply (outK m c) b j, out_col m c, mlp_agree m c m' hag]
  congr 1
  funext k
  rw [Cert.ReferenceIdeal.Hand.v136_apply m' c b j k, a0,
    Cert.KernelIdeal.Hand.ev_v82_hi m c ⟨294912 + (8 * b.val + j.val), by omega⟩ k (8 * b.val + j.val) (32768 + (8 * b.val + j.val)) (by omega) (by omega) rfl rfl,
    Cert.KernelIdeal.Hand.v70_apply m c ⟨32768 + (8 * b.val + j.val), by omega⟩ k, Cert.Link.L68_hi m m' c c h0 h2 h3 b j]

theorem loss_same : @Cert.KernelIdeal.Hand.lossK = @Cert.ReferenceIdeal.Hand.lossR := rfl

theorem result_eq (hag : Agree m c m') :
    Cert.ReferenceIdeal.Hand.ER m' c (Proc.devRef .tc Cert.ReferenceIdeal.main_v227)
      = Pipeline.afterTail₀ Cert.KernelIdeal.cfgs (Cert.KernelIdeal.Hand.dats m) 0 (Cert.KernelIdeal.Hand.V0 m) [Cert.KernelIdeal.Gen.hostOps1] c Cert.KernelIdeal.main_v180 := by
  obtain ⟨a0, a1, a2, a3, a4, a5, a6, a7, a8, a9, a10, a11, a12⟩ := id hag
  rw [Cert.ReferenceIdeal.Hand.tail_eq m' c, Cert.KernelIdeal.Hand.tail_eq m c, loss_same,
    Cert.KernelIdeal.Hand.V_of_arg m c (b := Cert.KernelIdeal.main_arg1) (by decide), Cert.KernelIdeal.Hand.V_of_arg m c (b := Cert.KernelIdeal.main_arg3) (by decide), Cert.KernelIdeal.Hand.V_of_arg m c (b := Cert.KernelIdeal.main_arg12) (by decide), a1, a3, a12, Cert.Link.L21 m m' c c a12]
  have hp : Cert.ReferenceIdeal.Hand.ER m' c (Proc.devRef .tc Cert.ReferenceIdeal.main_v48) = Cert.KernelIdeal.Hand.predK (outK m c) := by
    funext i
    obtain ⟨b, rfl⟩ : ∃ b : Fin 32768, i = ix1 b := ⟨i 0, eq_ix1 i⟩
    exact pred_eq m c m' hag b
  have hs : Cert.ReferenceIdeal.Hand.ER m' c (Proc.devRef .tc Cert.ReferenceIdeal.main_v128) = Cert.KernelIdeal.Hand.psK (outK m c) := by
    funext i
    obtain ⟨b, j, rfl⟩ : ∃ (b : Fin 32768) (j : Fin 8), i = ix2 b j := ⟨i 0, i 1, eq_ix2 i⟩
    exact ps_eq m c m' hag b j
  have hn : Cert.ReferenceIdeal.Hand.ER m' c (Proc.devRef .tc Cert.ReferenceIdeal.main_v156) = Cert.KernelIdeal.Hand.pnK (outK m c) := by
    funext i
    obtain ⟨b, j, rfl⟩ : ∃ (b : Fin 32768) (j : Fin 8), i = ix2 b j := ⟨i 0, i 1, eq_ix2 i⟩
    exact pn_eq m c m' hag b j
  rw [hp, hs, hn]

end Cert.Bridge

end
-- ==== Proof.lean ====
import proofs.«412532_j62079457296719_3_alg».proof.Defs
import proofs.«412532_j62079457296719_3_alg».proof.Proof.KRun
import proofs.«412532_j62079457296719_3_alg».proof.Proof.KIRun
import proofs.«412532_j62079457296719_3_alg».proof.Proof.Bridge
import proofs.«412532_j62079457296719_3_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- No host operation of the kernel program writes an argument, and no argument is one of the region's arrays. -/
theorem frame_k : Cert.frame_Kernel := fun m ρ _ =>
  (θ_run Cert.Kernel.defs _ _).mono (fun r h c => by and_intros <;> exact Cert.Kernel.Hand.arg_end m _ h c (by decide))
    (Cert.Kernel.Hand.run_main (F := Bits) m ρ)

theorem frame_ki : Cert.frame_KernelIdeal := fun m ρ _ =>
  (θ_run Cert.KernelIdeal.defs _ _).mono (fun r h c => by and_intros <;> exact Cert.KernelIdeal.Hand.arg_end m _ h c (by decide))
    (Cert.KernelIdeal.Hand.run_main (F := Ideal) m ρ)

/-- The reference is one straight line of operations, none of which writes an argument. -/
theorem frame_ri : Cert.frame_ReferenceIdeal := fun m ρ _ =>
  (θ_run Cert.ReferenceIdeal.defs _ _).mono
    (fun r h c => by and_intros <;> exact (h c _).trans (Cert.ReferenceIdeal.Hand.unwritten _ (by decide)))
    (Cert.ReferenceIdeal.Hand.run_main (F := Ideal) m ρ)

theorem algebraic : Cert.algebraic_KernelIdeal_ReferenceIdeal := by
  intro m ρ m' ρ' _ hagree
  refine ⟨fun c => Pipeline.afterTail₀ Cert.KernelIdeal.cfgs (Cert.KernelIdeal.Hand.dats m) 0 (Cert.KernelIdeal.Hand.V0 m)
      [Cert.KernelIdeal.Gen.hostOps1] c Cert.KernelIdeal.main_v180, ?_, ?_⟩
  · exact (θ_run Cert.KernelIdeal.defs _ _).mono
      (fun r h c => ⟨Cert.KernelIdeal.Hand.result_of m (Cert.KernelIdeal.Hand.dats m) r h c,
        by and_intros <;> exact Cert.KernelIdeal.Hand.arg_end m _ h c (by decide)⟩)
      (Cert.KernelIdeal.Hand.run_main (F := Ideal) m ρ)
  · exact (θ_run Cert.ReferenceIdeal.defs _ _).mono
      (fun r h c => ⟨(h c Cert.ReferenceIdeal.main_v227).trans (Cert.Bridge.result_eq m c m' (hagree c)),
        by and_intros <;> exact (h c _).trans (Cert.ReferenceIdeal.Hand.unwritten _ (by decide))⟩)
      (Cert.ReferenceIdeal.Hand.run_main (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
